-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x48 : Shape := ⟨2, ![50000, 48]⟩
abbrev S800000x48 : Shape := ⟨2, ![800000, 48]⟩
abbrev S128x32 : Shape := ⟨2, ![128, 32]⟩
abbrev S2x800000 : Shape := ⟨2, ![2, 800000]⟩
abbrev S50000 : Shape := ⟨1, ![50000]⟩
abbrev S800000 : Shape := ⟨1, ![800000]⟩
abbrev S176x64 : Shape := ⟨2, ![176, 64]⟩
abbrev S64 : Shape := ⟨1, ![64]⟩
abbrev S64x48 : Shape := ⟨2, ![64, 48]⟩
abbrev S48 : Shape := ⟨1, ![48]⟩
abbrev S128x64 : Shape := ⟨2, ![128, 64]⟩
abbrev S64x32 : Shape := ⟨2, ![64, 32]⟩
abbrev S32 : Shape := ⟨1, ![32]⟩
abbrev S_ : Shape := ⟨0, ![]⟩

class Facts : Prop where
  bcast_S_S50000x48 : S_.BroadcastsInDim S50000x48 (![] : Fin 0 → Fin S50000x48.rank)
  reducesTo_S50000x48_S_d0_1 : S50000x48.ReducesTo [0, 1] S_
  h_S_ : 0 < S_.numel
  bcast_S_S800000x48 : S_.BroadcastsInDim S800000x48 (![] : Fin 0 → Fin S800000x48.rank)
  reducesTo_S800000x48_S_d0_1 : S800000x48.ReducesTo [0, 1] S_
  bcast_S_S128x32 : S_.BroadcastsInDim S128x32 (![] : Fin 0 → Fin S128x32.rank)
  reducesTo_S128x32_S_d0_1 : S128x32.ReducesTo [0, 1] S_
  bcast_S_S176x64 : S_.BroadcastsInDim S176x64 (![] : Fin 0 → Fin S176x64.rank)
  reducesTo_S176x64_S_d0_1 : S176x64.ReducesTo [0, 1] S_
  bcast_S_S64 : S_.BroadcastsInDim S64 (![] : Fin 0 → Fin S64.rank)
  reducesTo_S64_S_d0 : S64.ReducesTo [0] S_
  bcast_S_S64x48 : S_.BroadcastsInDim S64x48 (![] : Fin 0 → Fin S64x48.rank)
  reducesTo_S64x48_S_d0_1 : S64x48.ReducesTo [0, 1] S_
  bcast_S_S48 : S_.BroadcastsInDim S48 (![] : Fin 0 → Fin S48.rank)
  reducesTo_S48_S_d0 : S48.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x800000 : S_.BroadcastsInDim S2x800000 (![] : Fin 0 → Fin S2x800000.rank)
  reducesTo_S2x800000_S_d0_1 : S2x800000.ReducesTo [0, 1] S_
  bcast_S_S50000 : S_.BroadcastsInDim S50000 (![] : Fin 0 → Fin S50000.rank)
  reducesTo_S50000_S_d0 : S50000.ReducesTo [0] S_
  bcast_S_S800000 : S_.BroadcastsInDim S800000 (![] : Fin 0 → Fin S800000.rank)
  reducesTo_S800000_S_d0 : S800000.ReducesTo [0] S_

variable [Facts]

def fn_part7 {F : FTy → Type} [FloatOps F] (main_arg5 : IVec S800000 32) (main_v117 : IVec S_ 1) (main_v118 : IVec S800000 32) : IVec S_ 1 :=
  let main_v119 : IVec S800000 1 := cmpi .sge main_arg5 main_v118
  let main_c_47 : IVec S_ 32 := constantI S_ 32 128#32
  let main_v120 : IVec S800000 32 := broadcastInDim S800000 ![] bcast_S_S800000 main_c_47
  let main_v121 : IVec S800000 1 := cmpi .slt main_arg5 main_v120
  let main_v122 : IVec S800000 1 := andi main_v119 main_v121
  let main_c_48 : IVec S_ 1 := constantI S_ 1 1#1
  let main_v123 : IVec S_ 1 := (fun x v => Host.reduce IntOp.andi x v reducesTo_S800000_S_d0 h_S_) main_v122 main_c_48
  let main_v124 : IVec S_ 1 := andi main_v117 main_v123
  main_v124

def fn_part6 {F : FTy → Type} [FloatOps F] (main_arg3 : IVec S2x800000 32) (main_arg4 : IVec S50000 32) (main_arg5 : IVec S800000 32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_c_40 : IVec S_ 32 := constantI S_ 32 0#32
  let main_v104 : IVec S2x800000 32 := broadcastInDim S2x800000 ![] bcast_S_S2x800000 main_c_40
  let main_v105 : IVec S2x800000 1 := cmpi .sge main_arg3 main_v104
  let main_c_41 : IVec S_ 32 := constantI S_ 32 50000#32
  let main_v106 : IVec S2x800000 32 := broadcastInDim S2x800000 ![] bcast_S_S2x800000 main_c_41
  let main_v107 : IVec S2x800000 1 := cmpi .slt main_arg3 main_v106
  let main_v108 : IVec S2x800000 1 := andi main_v105 main_v107
  let main_c_42 : IVec S_ 1 := constantI S_ 1 1#1
  let main_v109 : IVec S_ 1 := (fun x v => Host.reduce IntOp.andi x v reducesTo_S2x800000_S_d0_1 h_S_) main_v108 main_c_42
  let main_v110 : IVec S_ 1 := andi main_v103 main_v109
  let main_c_43 : IVec S_ 32 := constantI S_ 32 0#32
  let main_v111 : IVec S50000 32 := broadcastInDim S50000 ![] bcast_S_S50000 main_c_43
  let main_v112 : IVec S50000 1 := cmpi .sge main_arg4 main_v111
  let main_c_44 : IVec S_ 32 := constantI S_ 32 128#32
  let main_v113 : IVec S50000 32 := broadcastInDim S50000 ![] bcast_S_S50000 main_c_44
  let main_v114 : IVec S50000 1 := cmpi .slt main_arg4 main_v113
  let main_v115 : IVec S50000 1 := andi main_v112 main_v114
  let main_c_45 : IVec S_ 1 := constantI S_ 1 1#1
  let main_v116 : IVec S_ 1 := (fun x v => Host.reduce IntOp.andi x v reducesTo_S50000_S_d0 h_S_) main_v115 main_c_45
  let main_v117 : IVec S_ 1 := andi main_v110 main_v116
  let main_c_46 : IVec S_ 32 := constantI S_ 32 0#32
  let main_v118 : IVec S800000 32 := broadcastInDim S800000 ![] bcast_S_S800000 main_c_46
  fn_part7 (F := F) main_arg5 main_v117 main_v118

def fn_part5 {F : FTy → Type} [FloatOps F] (main_arg3 : IVec S2x800000 32) (main_arg4 : IVec S50000 32) (main_arg5 : IVec S800000 32) (main_arg21 : FVec F S32 .f32) (main_arg22 : FVec F S32 .f32) (main_arg23 : FVec F S32 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg22
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg23
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg3 main_arg4 main_arg5 main_v98 main_v101 main_c_39

def fn_part4 {F : FTy → Type} [FloatOps F] (main_arg3 : IVec S2x800000 32) (main_arg4 : IVec S50000 32) (main_arg5 : IVec S800000 32) (main_arg17 : FVec F S48 .f32) (main_arg18 : FVec F S128x64 .f32) (main_arg19 : FVec F S64 .f32) (main_arg20 : FVec F S64x32 .f32) (main_arg21 : FVec F S32 .f32) (main_arg22 : FVec F S32 .f32) (main_arg23 : FVec F S32 .f32) (main_v63 : IVec S_ 1) (main_v67 : IVec S_ 1) : IVec S_ 1 :=
  let main_v68 : IVec S_ 1 := andi main_v63 main_v67
  let main_v69 : FVec F S48 .f32 := Host.absf main_arg17
  let main_cst_26 : FVec F S_ .f32 := constant S_ .f32 0x7F800000#32
  let main_v70 : FVec F S48 .f32 := broadcastInDim S48 ![] bcast_S_S48 main_cst_26
  let main_v71 : IVec S48 1 := cmpf .olt main_v69 main_v70
  let main_c_27 : IVec S_ 1 := constantI S_ 1 1#1
  let main_v72 : IVec S_ 1 := (fun x v => Host.reduce IntOp.andi x v reducesTo_S48_S_d0 h_S_) main_v71 main_c_27
  let main_v73 : IVec S_ 1 := andi main_v68 main_v72
  let main_v74 : FVec F S128x64 .f32 := Host.absf main_arg18
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg20
  let main_cst_32 : FVec F S_ .f32 := constant S_ .f32 0x7F800000#32
  fn_part5 (F := F) main_arg3 main_arg4 main_arg5 main_arg21 main_arg22 main_arg23 main_v83 main_v84 main_cst_32

def fn_part3 {F : FTy → Type} [FloatOps F] (main_arg3 : IVec S2x800000 32) (main_arg4 : IVec S50000 32) (main_arg5 : IVec S800000 32) (main_arg14 : FVec F S64x48 .f32) (main_arg15 : FVec F S48 .f32) (main_arg16 : FVec F S48 .f32) (main_arg17 : FVec F S48 .f32) (main_arg18 : FVec F S128x64 .f32) (main_arg19 : FVec F S64 .f32) (main_arg20 : FVec F S64x32 .f32) (main_arg21 : FVec F S32 .f32) (main_arg22 : FVec F S32 .f32) (main_arg23 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x48 .f32 := Host.absf main_arg14
  let main_cst_20 : FVec F S_ .f32 := constant S_ .f32 0x7F800000#32
  let main_v55 : FVec F S64x48 .f32 := broadcastInDim S64x48 ![] bcast_S_S64x48 main_cst_20
  let main_v56 : IVec S64x48 1 := cmpf .olt main_v54 main_v55
  let main_c_21 : IVec S_ 1 := constantI S_ 1 1#1
  let main_v57 : IVec S_ 1 := (fun x v => Host.reduce IntOp.andi x v reducesTo_S64x48_S_d0_1 h_S_) main_v56 main_c_21
  let main_v58 : IVec S_ 1 := andi main_v53 main_v57
  let main_v59 : FVec F S48 .f32 := Host.absf main_arg15
  let main_cst_22 : FVec F S_ .f32 := constant S_ .f32 0x7F800000#32
  let main_v60 : FVec F S48 .f32 := broadcastInDim S48 ![] bcast_S_S48 main_cst_22
  let main_v61 : IVec S48 1 := cmpf .olt main_v59 main_v60
  let main_c_23 : IVec S_ 1 := constantI S_ 1 1#1
  let main_v62 : IVec S_ 1 := (fun x v => Host.reduce IntOp.andi x v reducesTo_S48_S_d0 h_S_) main_v61 main_c_23
  let main_v63 : IVec S_ 1 := andi main_v58 main_v62
  let main_v64 : FVec F S48 .f32 := Host.absf main_arg16
  let main_cst_24 : FVec F S_ .f32 := constant S_ .f32 0x7F800000#32
  let main_v65 : FVec F S48 .f32 := broadcastInDim S48 ![] bcast_S_S48 main_cst_24
  let main_v66 : IVec S48 1 := cmpf .olt main_v64 main_v65
  let main_c_25 : IVec S_ 1 := constantI S_ 1 1#1
  let main_v67 : IVec S_ 1 := (fun x v => Host.reduce IntOp.andi x v reducesTo_S48_S_d0 h_S_) main_v66 main_c_25
  fn_part4 (F := F) main_arg3 main_arg4 main_arg5 main_arg17 main_arg18 main_arg19 main_arg20 main_arg21 main_arg22 main_arg23 main_v63 main_v67

def fn_part2 {F : FTy → Type} [FloatOps F] (main_arg3 : IVec S2x800000 32) (main_arg4 : IVec S50000 32) (main_arg5 : IVec S800000 32) (main_arg10 : FVec F S48 .f32) (main_arg11 : FVec F S48 .f32) (main_arg12 : FVec F S128x64 .f32) (main_arg13 : FVec F S64 .f32) (main_arg14 : FVec F S64x48 .f32) (main_arg15 : FVec F S48 .f32) (main_arg16 : FVec F S48 .f32) (main_arg17 : FVec F S48 .f32) (main_arg18 : FVec F S128x64 .f32) (main_arg19 : FVec F S64 .f32) (main_arg20 : FVec F S64x32 .f32) (main_arg21 : FVec F S32 .f32) (main_arg22 : FVec F S32 .f32) (main_arg23 : FVec F S32 .f32) (main_v33 : IVec S_ 1) : IVec S_ 1 :=
  let main_v34 : FVec F S48 .f32 := Host.absf main_arg10
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  let main_v39 : FVec F S48 .f32 := Host.absf main_arg11
  let main_cst_14 : FVec F S_ .f32 := constant S_ .f32 0x7F800000#32
  let main_v40 : FVec F S48 .f32 := broadcastInDim S48 ![] bcast_S_S48 main_cst_14
  let main_v41 : IVec S48 1 := cmpf .olt main_v39 main_v40
  let main_c_15 : IVec S_ 1 := constantI S_ 1 1#1
  let main_v42 : IVec S_ 1 := (fun x v => Host.reduce IntOp.andi x v reducesTo_S48_S_d0 h_S_) main_v41 main_c_15
  let main_v43 : IVec S_ 1 := andi main_v38 main_v42
  let main_v44 : FVec F S128x64 .f32 := Host.absf main_arg12
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg3 main_arg4 main_arg5 main_arg14 main_arg15 main_arg16 main_arg17 main_arg18 main_arg19 main_arg20 main_arg21 main_arg22 main_arg23 main_v48 main_v49 main_v50

def fn_part1 {F : FTy → Type} [FloatOps F] (main_arg3 : IVec S2x800000 32) (main_arg4 : IVec S50000 32) (main_arg5 : IVec S800000 32) (main_arg7 : FVec F S64 .f32) (main_arg8 : FVec F S64x48 .f32) (main_arg9 : FVec F S48 .f32) (main_arg10 : FVec F S48 .f32) (main_arg11 : FVec F S48 .f32) (main_arg12 : FVec F S128x64 .f32) (main_arg13 : FVec F S64 .f32) (main_arg14 : FVec F S64x48 .f32) (main_arg15 : FVec F S48 .f32) (main_arg16 : FVec F S48 .f32) (main_arg17 : FVec F S48 .f32) (main_arg18 : FVec F S128x64 .f32) (main_arg19 : FVec F S64 .f32) (main_arg20 : FVec F S64x32 .f32) (main_arg21 : FVec F S32 .f32) (main_arg22 : FVec F S32 .f32) (main_arg23 : FVec F S32 .f32) (main_v13 : IVec S_ 1) (main_v16 : IVec S176x64 1) : IVec S_ 1 :=
  let main_c_5 : IVec S_ 1 := constantI S_ 1 1#1
  let main_v17 : IVec S_ 1 := (fun x v => Host.reduce IntOp.andi x v reducesTo_S176x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x48 .f32 := Host.absf main_arg8
  let main_cst_8 : FVec F S_ .f32 := constant S_ .f32 0x7F800000#32
  let main_v25 : FVec F S64x48 .f32 := broadcastInDim S64x48 ![] bcast_S_S64x48 main_cst_8
  let main_v26 : IVec S64x48 1 := cmpf .olt main_v24 main_v25
  let main_c_9 : IVec S_ 1 := constantI S_ 1 1#1
  let main_v27 : IVec S_ 1 := (fun x v => Host.reduce IntOp.andi x v reducesTo_S64x48_S_d0_1 h_S_) main_v26 main_c_9
  let main_v28 : IVec S_ 1 := andi main_v23 main_v27
  let main_v29 : FVec F S48 .f32 := Host.absf main_arg9
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  fn_part2 (F := F) main_arg3 main_arg4 main_arg5 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x48 .f32) (main_arg1 : FVec F S800000x48 .f32) (main_arg2 : FVec F S128x32 .f32) (main_arg3 : IVec S2x800000 32) (main_arg4 : IVec S50000 32) (main_arg5 : IVec S800000 32) (main_arg6 : FVec F S176x64 .f32) (main_arg7 : FVec F S64 .f32) (main_arg8 : FVec F S64x48 .f32) (main_arg9 : FVec F S48 .f32) (main_arg10 : FVec F S48 .f32) (main_arg11 : FVec F S48 .f32) (main_arg12 : FVec F S128x64 .f32) (main_arg13 : FVec F S64 .f32) (main_arg14 : FVec F S64x48 .f32) (main_arg15 : FVec F S48 .f32) (main_arg16 : FVec F S48 .f32) (main_arg17 : FVec F S48 .f32) (main_arg18 : FVec F S128x64 .f32) (main_arg19 : FVec F S64 .f32) (main_arg20 : FVec F S64x32 .f32) (main_arg21 : FVec F S32 .f32) (main_arg22 : FVec F S32 .f32) (main_arg23 : FVec F S32 .f32) : IVec S_ 1 :=
  let main_v0 : FVec F S50000x48 .f32 := Host.absf main_arg0
  let main_cst : FVec F S_ .f32 := constant S_ .f32 0x7F800000#32
  let main_v1 : FVec F S50000x48 .f32 := broadcastInDim S50000x48 ![] bcast_S_S50000x48 main_cst
  let main_v2 : IVec S50000x48 1 := cmpf .olt main_v0 main_v1
  let main_c : IVec S_ 1 := constantI S_ 1 1#1
  let main_v3 : IVec S_ 1 := (fun x v => Host.reduce IntOp.andi x v reducesTo_S50000x48_S_d0_1 h_S_) main_v2 main_c
  let main_v4 : FVec F S800000x48 .f32 := Host.absf main_arg1
  let main_cst_0 : FVec F S_ .f32 := constant S_ .f32 0x7F800000#32
  let main_v5 : FVec F S800000x48 .f32 := broadcastInDim S800000x48 ![] bcast_S_S800000x48 main_cst_0
  let main_v6 : IVec S800000x48 1 := cmpf .olt main_v4 main_v5
  let main_c_1 : IVec S_ 1 := constantI S_ 1 1#1
  let main_v7 : IVec S_ 1 := (fun x v => Host.reduce IntOp.andi x v reducesTo_S800000x48_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S176x64 .f32 := Host.absf main_arg6
  let main_cst_4 : FVec F S_ .f32 := constant S_ .f32 0x7F800000#32
  let main_v15 : FVec F S176x64 .f32 := broadcastInDim S176x64 ![] bcast_S_S176x64 main_cst_4
  let main_v16 : IVec S176x64 1 := cmpf .olt main_v14 main_v15
  fn_part1 (F := F) main_arg3 main_arg4 main_arg5 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x48 : Shape := ⟨2, ![50000, 48]⟩
abbrev S800000x48 : Shape := ⟨2, ![800000, 48]⟩
abbrev S128x32 : Shape := ⟨2, ![128, 32]⟩
abbrev S2x800000 : Shape := ⟨2, ![2, 800000]⟩
abbrev S50000 : Shape := ⟨1, ![50000]⟩
abbrev S800000 : Shape := ⟨1, ![800000]⟩
abbrev S176x64 : Shape := ⟨2, ![176, 64]⟩
abbrev S64 : Shape := ⟨1, ![64]⟩
abbrev S64x48 : Shape := ⟨2, ![64, 48]⟩
abbrev S48 : Shape := ⟨1, ![48]⟩
abbrev S128x64 : Shape := ⟨2, ![128, 64]⟩
abbrev S64x32 : Shape := ⟨2, ![64, 32]⟩
abbrev S32 : Shape := ⟨1, ![32]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x32 : Shape := ⟨2, ![800000, 32]⟩
abbrev S1x64 : Shape := ⟨2, ![1, 64]⟩
abbrev S1x48 : Shape := ⟨2, ![1, 48]⟩
abbrev S8000x48 : Shape := ⟨2, ![8000, 48]⟩
abbrev S8000x32 : Shape := ⟨2, ![8000, 32]⟩
abbrev S8000x176 : Shape := ⟨2, ![8000, 176]⟩
abbrev S8000x64 : Shape := ⟨2, ![8000, 64]⟩
abbrev S8000 : Shape := ⟨1, ![8000]⟩
abbrev S8000x1 : Shape := ⟨2, ![8000, 1]⟩
abbrev S50000x1 : Shape := ⟨2, ![50000, 1]⟩
abbrev S50000x32 : Shape := ⟨2, ![50000, 32]⟩
abbrev S10000x48 : Shape := ⟨2, ![10000, 48]⟩
abbrev S10000x32 : Shape := ⟨2, ![10000, 32]⟩
abbrev S10000x128 : Shape := ⟨2, ![10000, 128]⟩
abbrev S10000x64 : Shape := ⟨2, ![10000, 64]⟩
abbrev S10000 : Shape := ⟨1, ![10000]⟩
abbrev S10000x1 : Shape := ⟨2, ![10000, 1]⟩
abbrev S128x48 : Shape := ⟨2, ![128, 48]⟩
abbrev S128x1 : Shape := ⟨2, ![128, 1]⟩
abbrev S128x128 : Shape := ⟨2, ![128, 128]⟩
abbrev S1x32 : Shape := ⟨2, ![1, 32]⟩
abbrev S128 : Shape := ⟨1, ![128]⟩

abbrev nBuf : Space → Nat
  | .hbm => 181
  | .vmem => 38
  | .smem => 0
  | _ => 0

abbrev hbmTy0_0 (i : Nat) : BufTy := match i % 128 with
  | 0 => ⟨S50000x48, .f32⟩
  | 1 => ⟨S800000x48, .f32⟩
  | 2 => ⟨S128x32, .f32⟩
  | 3 => ⟨S2x800000, .i32⟩
  | 4 => ⟨S50000, .i32⟩
  | 5 => ⟨S800000, .i32⟩
  | 6 => ⟨S176x64, .f32⟩
  | 7 => ⟨S64, .f32⟩
  | 8 => ⟨S64x48, .f32⟩
  | 9 => ⟨S48, .f32⟩
  | 10 => ⟨S48, .f32⟩
  | 11 => ⟨S48, .f32⟩
  | 12 => ⟨S128x64, .f32⟩
  | 13 => ⟨S64, .f32⟩
  | 14 => ⟨S64x48, .f32⟩
  | 15 => ⟨S48, .f32⟩
  | 16 => ⟨S48, .f32⟩
  | 17 => ⟨S48, .f32⟩
  | 18 => ⟨S128x64, .f32⟩
  | 19 => ⟨S64, .f32⟩
  | 20 => ⟨S64x32, .f32⟩
  | 21 => ⟨S32, .f32⟩
  | 22 => ⟨S32, .f32⟩
  | 23 => ⟨S32, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S1, .i32⟩
  | 37 => ⟨S_, .i32⟩
  | 38 => ⟨S800000x1, .i32⟩
  | 39 => ⟨S800000x1, .i1⟩
  | 40 => ⟨S1x1, .i32⟩
  | 41 => ⟨S800000x1, .i32⟩
  | 42 => ⟨S800000x1, .i1⟩
  | 43 => ⟨S800000x1, .i1⟩
  | 44 => ⟨S_, .i1⟩
  | 45 => ⟨S800000, .i1⟩
  | 46 => ⟨S800000x48, .f32⟩
  | 47 => ⟨S800000x48, .i1⟩
  | 48 => ⟨S_, .f32⟩
  | 49 => ⟨S800000x48, .f32⟩
  | 50 => ⟨S800000x48, .f32⟩
  | 51 => ⟨S800000x48, .bf16⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S1, .i32⟩
  | 61 => ⟨S_, .i32⟩
  | 62 => ⟨S800000x1, .i32⟩
  | 63 => ⟨S800000x1, .i1⟩
  | 64 => ⟨S1x1, .i32⟩
  | 65 => ⟨S800000x1, .i32⟩
  | 66 => ⟨S800000x1, .i1⟩
  | 67 => ⟨S800000x1, .i1⟩
  | 68 => ⟨S_, .i1⟩
  | 69 => ⟨S800000, .i1⟩
  | 70 => ⟨S800000x48, .f32⟩
  | 71 => ⟨S800000x48, .i1⟩
  | 72 => ⟨S_, .f32⟩
  | 73 => ⟨S800000x48, .f32⟩
  | 74 => ⟨S800000x48, .f32⟩
  | 75 => ⟨S800000x48, .bf16⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S1, .i32⟩
  | 85 => ⟨S_, .i32⟩
  | 86 => ⟨S800000x1, .i32⟩
  | 87 => ⟨S800000x1, .i1⟩
  | 88 => ⟨S1x1, .i32⟩
  | 89 => ⟨S800000x1, .i32⟩
  | 90 => ⟨S800000x1, .i1⟩
  | 91 => ⟨S800000x1, .i1⟩
  | 92 => ⟨S_, .i1⟩
  | 93 => ⟨S800000, .i1⟩
  | 94 => ⟨S800000x32, .f32⟩
  | 95 => ⟨S800000x32, .i1⟩
  | 96 => ⟨S_, .f32⟩
  | 97 => ⟨S800000x32, .f32⟩
  | 98 => ⟨S800000x32, .f32⟩
  | 99 => ⟨S800000x32, .bf16⟩
  | 100 => ⟨S800000x48, .bf16⟩
  | 101 => ⟨S176x64, .bf16⟩
  | 102 => ⟨S64x48, .bf16⟩
  | 103 => ⟨S1x64, .f32⟩
  | 104 => ⟨S1x48, .f32⟩
  | 105 => ⟨S1x48, .f32⟩
  | 106 => ⟨S1x48, .f32⟩
  | 107 => ⟨S800000x48, .f32⟩
  | 108 => ⟨S_, .f32⟩
  | 109 => ⟨S50000x48, .f32⟩
  | 110 => ⟨S800000x1, .i32⟩
  | 111 => ⟨S50000x48, .f32⟩
  | 112 => ⟨S_, .i32⟩
  | 113 => ⟨S50000, .i32⟩
  | 114 => ⟨S50000, .i1⟩
  | 115 => ⟨S_, .i32⟩
  | 116 => ⟨S50000, .i32⟩
  | 117 => ⟨S50000, .i32⟩
  | 118 => ⟨S50000, .i32⟩
  | 119 => ⟨S50000x1, .i32⟩
  | 120 => ⟨S1, .i32⟩
  | 121 => ⟨S_, .i32⟩
  | 122 => ⟨S50000x1, .i32⟩
  | 123 => ⟨S50000x1, .i1⟩
  | 124 => ⟨S1x1, .i32⟩
  | 125 => ⟨S50000x1, .i32⟩
  | 126 => ⟨S50000x1, .i1⟩
  | 127 => ⟨S50000x1, .i1⟩
  | _ => ⟨S50000x48, .f32⟩

abbrev hbmTy0_1 (i : Nat) : BufTy := match i % 128 with
  | 0 => ⟨S_, .i1⟩
  | 1 => ⟨S50000, .i1⟩
  | 2 => ⟨S50000x32, .f32⟩
  | 3 => ⟨S50000x32, .i1⟩
  | 4 => ⟨S_, .f32⟩
  | 5 => ⟨S50000x32, .f32⟩
  | 6 => ⟨S50000x32, .f32⟩
  | 7 => ⟨S50000x32, .bf16⟩
  | 8 => ⟨S50000x48, .bf16⟩
  | 9 => ⟨S50000x48, .bf16⟩
  | 10 => ⟨S128x64, .bf16⟩
  | 11 => ⟨S64x48, .bf16⟩
  | 12 => ⟨S1x64, .f32⟩
  | 13 => ⟨S1x48, .f32⟩
  | 14 => ⟨S1x48, .f32⟩
  | 15 => ⟨S1x48, .f32⟩
  | 16 => ⟨S50000x48, .f32⟩
  | 17 => ⟨S_, .f32⟩
  | 18 => ⟨S128x48, .f32⟩
  | 19 => ⟨S50000x1, .i32⟩
  | 20 => ⟨S128x48, .f32⟩
  | 21 => ⟨S_, .f32⟩
  | 22 => ⟨S50000x1, .f32⟩
  | 23 => ⟨S_, .f32⟩
  | 24 => ⟨S128x1, .f32⟩
  | 25 => ⟨S50000x1, .i32⟩
  | 26 => ⟨S128x1, .f32⟩
  | 27 => ⟨S_, .f32⟩
  | 28 => ⟨S128x1, .f32⟩
  | 29 => ⟨S128x1, .f32⟩
  | 30 => ⟨S128x48, .f32⟩
  | 31 => ⟨S128x48, .f32⟩
  | 32 => ⟨S_, .f32⟩
  | 33 => ⟨S128x48, .f32⟩
  | 34 => ⟨S800000x1, .i32⟩
  | 35 => ⟨S128x48, .f32⟩
  | 36 => ⟨S_, .f32⟩
  | 37 => ⟨S800000x1, .f32⟩
  | 38 => ⟨S_, .f32⟩
  | 39 => ⟨S128x1, .f32⟩
  | 40 => ⟨S800000x1, .i32⟩
  | 41 => ⟨S128x1, .f32⟩
  | 42 => ⟨S_, .f32⟩
  | 43 => ⟨S128x1, .f32⟩
  | 44 => ⟨S128x1, .f32⟩
  | 45 => ⟨S128x48, .f32⟩
  | 46 => ⟨S128x48, .f32⟩
  | 47 => ⟨S128x128, .f32⟩
  | 48 => ⟨S1x64, .f32⟩
  | 49 => ⟨S1x32, .f32⟩
  | 50 => ⟨S1x32, .f32⟩
  | 51 => ⟨S1x32, .f32⟩
  | 52 => ⟨S128x32, .f32⟩
  | _ => ⟨S50000x48, .f32⟩

abbrev hbmTy (i : Nat) : BufTy := match i / 128 with
  | 0 => hbmTy0_0 i
  | 1 => hbmTy0_1 i
  | _ => ⟨S50000x48, .f32⟩

abbrev bufTy : (tb : Table) → Fin (tcTables nBuf tb) → BufTy
  | .hbm, ⟨i, _⟩ => hbmTy i
  | .local _ .vmem, ⟨0, _⟩ => ⟨S8000x48, .bf16⟩
  | .local _ .vmem, ⟨1, _⟩ => ⟨S8000x48, .bf16⟩
  | .local _ .vmem, ⟨2, _⟩ => ⟨S8000x48, .bf16⟩
  | .local _ .vmem, ⟨3, _⟩ => ⟨S8000x48, .bf16⟩
  | .local _ .vmem, ⟨4, _⟩ => ⟨S8000x48, .bf16⟩
  | .local _ .vmem, ⟨5, _⟩ => ⟨S8000x48, .bf16⟩
  | .local _ .vmem, ⟨6, _⟩ => ⟨S8000x32, .bf16⟩
  | .local _ .vmem, ⟨7, _⟩ => ⟨S8000x32, .bf16⟩
  | .local _ .vmem, ⟨8, _⟩ => ⟨S176x64, .bf16⟩
  | .local _ .vmem, ⟨9, _⟩ => ⟨S1x64, .f32⟩
  | .local _ .vmem, ⟨10, _⟩ => ⟨S64x48, .bf16⟩
  | .local _ .vmem, ⟨11, _⟩ => ⟨S1x48, .f32⟩
  | .local _ .vmem, ⟨12, _⟩ => ⟨S1x48, .f32⟩
  | .local _ .vmem, ⟨13, _⟩ => ⟨S1x48, .f32⟩
  | .local _ .vmem, ⟨14, _⟩ => ⟨S8000x48, .f32⟩
  | .local _ .vmem, ⟨15, _⟩ => ⟨S8000x48, .f32⟩
  | .local _ .vmem, ⟨16, _⟩ => ⟨S10000x48, .bf16⟩
  | .local _ .vmem, ⟨17, _⟩ => ⟨S10000x48, .bf16⟩
  | .local _ .vmem, ⟨18, _⟩ => ⟨S10000x48, .bf16⟩
  | .local _ .vmem, ⟨19, _⟩ => ⟨S10000x48, .bf16⟩
  | .local _ .vmem, ⟨20, _⟩ => ⟨S10000x32, .bf16⟩
  | .local _ .vmem, ⟨21, _⟩ => ⟨S10000x32, .bf16⟩
  | .local _ .vmem, ⟨22, _⟩ => ⟨S128x64, .bf16⟩
  | .local _ .vmem, ⟨23, _⟩ => ⟨S1x64, .f32⟩
  | .local _ .vmem, ⟨24, _⟩ => ⟨S64x48, .bf16⟩
  | .local _ .vmem, ⟨25, _⟩ => ⟨S1x48, .f32⟩
  | .local _ .vmem, ⟨26, _⟩ => ⟨S1x48, .f32⟩
  | .local _ .vmem, ⟨27, _⟩ => ⟨S1x48, .f32⟩
  | .local _ .vmem, ⟨28, _⟩ => ⟨S10000x48, .f32⟩
  | .local _ .vmem, ⟨29, _⟩ => ⟨S10000x48, .f32⟩
  | .local _ .vmem, ⟨30, _⟩ => ⟨S128x128, .f32⟩
  | .local _ .vmem, ⟨31, _⟩ => ⟨S128x64, .f32⟩
  | .local _ .vmem, ⟨32, _⟩ => ⟨S1x64, .f32⟩
  | .local _ .vmem, ⟨33, _⟩ => ⟨S64x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S128x32, .f32⟩
  | _, _ => ⟨S50000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v4 : Ref sig .tc := ⟨.hbm, 50, rfl⟩
abbrev main_v5 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v6 : Ref sig .tc := ⟨.hbm, 74, rfl⟩
abbrev main_v7 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v8 : Ref sig .tc := ⟨.hbm, 98, rfl⟩
abbrev main_v9 : Ref sig .tc := ⟨.hbm, 99, rfl⟩
abbrev main_v10 : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev main_v14 : Ref sig .tc := ⟨.hbm, 104, rfl⟩
abbrev main_v15 : Ref sig .tc := ⟨.hbm, 105, rfl⟩
abbrev main_v16 : Ref sig .tc := ⟨.hbm, 106, rfl⟩
abbrev main_v17 : Ref sig .tc := ⟨.hbm, 107, rfl⟩
abbrev main_cst : Ref sig .tc := ⟨.hbm, 108, rfl⟩
abbrev main_v18 : Ref sig .tc := ⟨.hbm, 109, rfl⟩
abbrev main_v19 : Ref sig .tc := ⟨.hbm, 110, rfl⟩
abbrev main_v20 : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_c_1 : Ref sig .tc := ⟨.hbm, 120, rfl⟩
abbrev main_call3_c_2 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_3 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_cst : Ref sig .tc := ⟨.hbm, 132, rfl⟩
abbrev main_call3_v15 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_cst_0 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_cst_1 : Ref sig .tc := ⟨.hbm, 149, rfl⟩
abbrev main_v35 : Ref sig .tc := ⟨.hbm, 150, rfl⟩
abbrev main_cst_2 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_cst_3 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_cst_4 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_cst_5 : Ref sig .tc := ⟨.hbm, 164, rfl⟩
abbrev main_v46 : Ref sig .tc := ⟨.hbm, 165, rfl⟩
abbrev main_cst_6 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_cst_7 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc2_sem0_0 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x48 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x48 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S176x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x48 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8000x48 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x48 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x48 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x48 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x48 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x48 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x48 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x48_0 : S800000.BroadcastsInDim S800000x48 (![0] : Fin 1 → Fin S800000x48.rank)
  bcast_S_S800000x48 : S_.BroadcastsInDim S800000x48 (![] : Fin 0 → Fin S800000x48.rank)
  bitsLt_bf16_f32 : FTy.bits .bf16 < FTy.bits .f32
  bcast_S800000_S800000x32_0 : S800000.BroadcastsInDim S800000x32 (![0] : Fin 1 → Fin S800000x32.rank)
  bcast_S_S800000x32 : S_.BroadcastsInDim S800000x32 (![] : Fin 0 → Fin S800000x32.rank)
  shapeCasts_S64_S1x64 : S64.ShapeCasts S1x64
  shapeCasts_S48_S1x48 : S48.ShapeCasts S1x48
  inb_S8000x48_S8000x48_0_0 : ∀ a, (![0, 0] : Fin 2 → Nat) a + S8000x48.size a ≤ S8000x48.size a
  h_S8000x48 : 0 < S8000x48.numel
  shapeCasts_S8000x48_S8000x48 : S8000x48.ShapeCasts S8000x48
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  concatenates_S8000x48_S8000x48_S8000x48_S8000x32_S8000x176_d1 : Shape.Concatenates [S8000x48, S8000x48, S8000x48, S8000x32] S8000x176 1
  inb_S176x64_S176x64_0_0 : ∀ a, (![0, 0] : Fin 2 → Nat) a + S176x64.size a ≤ S176x64.size a
  h_S176x64 : 0 < S176x64.numel
  shapeCasts_S176x64_S176x64 : S176x64.ShapeCasts S176x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x48_S64x48_0_0 : ∀ a, (![0, 0] : Fin 2 → Nat) a + S64x48.size a ≤ S64x48.size a
  h_S64x48 : 0 < S64x48.numel
  shapeCasts_S64x48_S64x48 : S64x48.ShapeCasts S64x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S8000x48 : S1x48.Broadcasts S8000x48
  reduces_S8000x48_S8000 : S8000x48.Reduces [1] S8000
  shapeCasts_S8000_S8000x1 : S8000.ShapeCasts S8000x1
  broadcasts_S8000x1_S8000x48 : S8000x1.Broadcasts S8000x48
  bcast_S_S50000x48 : S_.BroadcastsInDim S50000x48 (![] : Fin 0 → Fin S50000x48.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x32_0 : S50000.BroadcastsInDim S50000x32 (![0] : Fin 1 → Fin S50000x32.rank)
  bcast_S_S50000x32 : S_.BroadcastsInDim S50000x32 (![] : Fin 0 → Fin S50000x32.rank)
  inb_S10000x48_S10000x48_0_0 : ∀ a, (![0, 0] : Fin 2 → Nat) a + S10000x48.size a ≤ S10000x48.size a
  h_S10000x48 : 0 < S10000x48.numel
  shapeCasts_S10000x48_S10000x48 : S10000x48.ShapeCasts S10000x48
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  concatenates_S10000x48_S10000x48_S10000x32_S10000x128_d1 : Shape.Concatenates [S10000x48, S10000x48, S10000x32] S10000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1x64_S10000x64 : S1x64.Broadcasts S10000x64
  broadcasts_S1x48_S10000x48 : S1x48.Broadcasts S10000x48
  reduces_S10000x48_S10000 : S10000x48.Reduces [1] S10000
  shapeCasts_S10000_S10000x1 : S10000.ShapeCasts S10000x1
  broadcasts_S10000x1_S10000x48 : S10000x1.Broadcasts S10000x48
  bcast_S_S128x48 : S_.BroadcastsInDim S128x48 (![] : Fin 0 → Fin S128x48.rank)
  bcast_S_S128x1 : S_.BroadcastsInDim S128x1 (![] : Fin 0 → Fin S128x1.rank)
  bcast_S128x1_S128x48_0_1 : S128x1.BroadcastsInDim S128x48 (![0, 1] : Fin 2 → Fin S128x48.rank)
  concatenates_S128x32_S128x48_S128x48_S128x128_d1 : Shape.Concatenates [S128x32, S128x48, S128x48] S128x128 1
  shapeCasts_S32_S1x32 : S32.ShapeCasts S1x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x64_S128x64 : S1x64.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  reduces_S128x32_S128 : S128x32.Reduces [1] S128
  shapeCasts_S128_S128x1 : S128.ShapeCasts S128x1
  broadcasts_S128x1_S128x32 : S128x1.Broadcasts S128x32
  inb_S128x32_S128x32_0_0 : ∀ a, (![0, 0] : Fin 2 → Nat) a + S128x32.size a ≤ S128x32.size a
  h_S128x32 : 0 < S128x32.numel
  gather_S50000x48_S800000x1_S800000x48_1_0_n_n_0_1_148_wf : GatherDims.WF S50000x48 S800000x1 S800000x48 [1] [0] [] [0] [] 1 ![1, 48]
  gather_S128x32_S800000x1_S800000x32_1_0_n_n_0_1_132_wf : GatherDims.WF S128x32 S800000x1 S800000x32 [1] [0] [] [0] [] 1 ![1, 32]
  dot_S8000x176_S176x64_S8000x64_1_0_0_1_n_n_wf : DotDims.WF S8000x176 S176x64 S8000x64 [1] [0] [0] [1] [] []
  dot_S8000x64_S64x48_S8000x48_1_0_0_1_n_n_wf : DotDims.WF S8000x64 S64x48 S8000x48 [1] [0] [0] [1] [] []
  scatter_S50000x48_S800000x1_S800000x48_1_0_0_1_wf : ScatterDims.WF S50000x48 S800000x1 S800000x48 [1] [0] [0] 1
  gather_S128x32_S50000x1_S50000x32_1_0_n_n_0_1_132_wf : GatherDims.WF S128x32 S50000x1 S50000x32 [1] [0] [] [0] [] 1 ![1, 32]
  dot_S10000x128_S128x64_S10000x64_1_0_0_1_n_n_wf : DotDims.WF S10000x128 S128x64 S10000x64 [1] [0] [0] [1] [] []
  dot_S10000x64_S64x48_S10000x48_1_0_0_1_n_n_wf : DotDims.WF S10000x64 S64x48 S10000x48 [1] [0] [0] [1] [] []
  scatter_S128x48_S50000x1_S50000x48_1_0_0_1_wf : ScatterDims.WF S128x48 S50000x1 S50000x48 [1] [0] [0] 1
  scatter_S128x1_S50000x1_S50000x1_1_0_0_1_wf : ScatterDims.WF S128x1 S50000x1 S50000x1 [1] [0] [0] 1
  scatter_S128x48_S800000x1_S800000x48_1_0_0_1_wf : ScatterDims.WF S128x48 S800000x1 S800000x48 [1] [0] [0] 1
  scatter_S128x1_S800000x1_S800000x1_1_0_0_1_wf : ScatterDims.WF S128x1 S800000x1 S800000x1 [1] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x48.size a ≤ S800000x48.size a
  hwx0_0 : ∀ i : grid0.Coords, EltTy.bits .bf16 = 32 ∨ (Rect.block (s := S800000x48) S8000x48.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x48.size a ≤ S800000x48.size a
  hwx0_1 : ∀ i : grid0.Coords, EltTy.bits .bf16 = 32 ∨ (Rect.block (s := S800000x48) S8000x48.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x48.size a ≤ S800000x48.size a
  hwx0_2 : ∀ i : grid0.Coords, EltTy.bits .bf16 = 32 ∨ (Rect.block (s := S800000x48) S8000x48.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x32.size a ≤ S800000x32.size a
  hwx0_3 : ∀ i : grid0.Coords, EltTy.bits .bf16 = 32 ∨ (Rect.block (s := S800000x32) S8000x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S176x64.size a ≤ S176x64.size a
  hwx0_4 : ∀ i : grid0.Coords, EltTy.bits .bf16 = 32 ∨ (Rect.block (s := S176x64) S176x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x48.size a ≤ S64x48.size a
  hwx0_6 : ∀ i : grid0.Coords, EltTy.bits .bf16 = 32 ∨ (Rect.block (s := S64x48) S64x48.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x48.size a ≤ S1x48.size a
  hwx0_7 : ∀ i : grid0.Coords, EltTy.bits .f32 = 32 ∨ (Rect.block (s := S1x48) S1x48.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x48.size a ≤ S1x48.size a
  hwx0_8 : ∀ i : grid0.Coords, EltTy.bits .f32 = 32 ∨ (Rect.block (s := S1x48) S1x48.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x48.size a ≤ S1x48.size a
  hwx0_9 : ∀ i : grid0.Coords, EltTy.bits .f32 = 32 ∨ (Rect.block (s := S1x48) S1x48.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8000x48.size a ≤ S800000x48.size a
  hwx0_10 : ∀ i : grid0.Coords, EltTy.bits .f32 = 32 ∨ (Rect.block (s := S800000x48) S8000x48.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S50000x48.size a
  hwx1_0 : ∀ i : grid1.Coords, EltTy.bits .bf16 = 32 ∨ (Rect.block (s := S50000x48) S10000x48.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x48.size a ≤ S50000x48.size a
  hwx1_1 : ∀ i : grid1.Coords, EltTy.bits .bf16 = 32 ∨ (Rect.block (s := S50000x48) S10000x48.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S50000x32.size a
  hwx1_2 : ∀ i : grid1.Coords, EltTy.bits .bf16 = 32 ∨ (Rect.block (s := S50000x32) S10000x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .bf16 = 32 ∨ (Rect.block (s := S128x64) S128x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x48.size a ≤ S64x48.size a
  hwx1_5 : ∀ i : grid1.Coords, EltTy.bits .bf16 = 32 ∨ (Rect.block (s := S64x48) S64x48.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x48.size a ≤ S1x48.size a
  hwx1_6 : ∀ i : grid1.Coords, EltTy.bits .f32 = 32 ∨ (Rect.block (s := S1x48) S1x48.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x48.size a ≤ S1x48.size a
  hwx1_7 : ∀ i : grid1.Coords, EltTy.bits .f32 = 32 ∨ (Rect.block (s := S1x48) S1x48.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x48.size a ≤ S1x48.size a
  hwx1_8 : ∀ i : grid1.Coords, EltTy.bits .f32 = 32 ∨ (Rect.block (s := S1x48) S1x48.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x48.size a ≤ S50000x48.size a
  hwx1_9 : ∀ i : grid1.Coords, EltTy.bits .f32 = 32 ∨ (Rect.block (s := S50000x48) S10000x48.size (cc1_transform_9 i) (hinb1_9 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S128x128.size a
  hwx2_0 : ∀ i : grid2.Coords, EltTy.bits .f32 = 32 ∨ (Rect.block (s := S128x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 1
  hreads2_7 : ∀ i i' : grid2.Coords, (∀ a, reads2_7 a = true → i a = i' a) → cc2_transform_7 i = cc2_transform_7 i'
  hinb2_7 : ∀ (i : grid2.Coords) a, (cc2_transform_7 i a + 1) * S128x32.size a ≤ S128x32.size a
  hwx2_7 : ∀ i : grid2.Coords, EltTy.bits .f32 = 32 ∨ (Rect.block (s := S128x32) S128x32.size (cc2_transform_7 i) (hinb2_7 i)).WholeWords (EltTy.packing .f32)

variable [Facts₀]

def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def gather_S128x32_S800000x1_S800000x32_1_0_n_n_0_1_132 : GatherDims S128x32 S800000x1 S800000x32 where
  offsetDims := [1]
  collapsedSliceDims := [0]
  operandBatchingDims := []
  startIndicesBatchingDims := []
  startIndexMap := [0]
  indexVectorDim := 1
  sliceSizes := ![1, 32]
  wf := gather_S128x32_S800000x1_S800000x32_1_0_n_n_0_1_132_wf
def dot_S8000x176_S176x64_S8000x64_1_0_0_1_n_n : DotDims S8000x176 S176x64 S8000x64 where
  lhsContracting := [1]
  rhsContracting := [0]
  lhsNonContracting := [0]
  rhsNonContracting := [1]
  lhsBatch := []
  rhsBatch := []
  wf := dot_S8000x176_S176x64_S8000x64_1_0_0_1_n_n_wf
def dot_S8000x64_S64x48_S8000x48_1_0_0_1_n_n : DotDims S8000x64 S64x48 S8000x48 where
  lhsContracting := [1]
  rhsContracting := [0]
  lhsNonContracting := [0]
  rhsNonContracting := [1]
  lhsBatch := []
  rhsBatch := []
  wf := dot_S8000x64_S64x48_S8000x48_1_0_0_1_n_n_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def gather_S128x32_S50000x1_S50000x32_1_0_n_n_0_1_132 : GatherDims S128x32 S50000x1 S50000x32 where
  offsetDims := [1]
  collapsedSliceDims := [0]
  operandBatchingDims := []
  startIndicesBatchingDims := []
  startIndexMap := [0]
  indexVectorDim := 1
  sliceSizes := ![1, 32]
  wf := gather_S128x32_S50000x1_S50000x32_1_0_n_n_0_1_132_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x48_S10000x48_1_0_0_1_n_n : DotDims S10000x64 S64x48 S10000x48 where
  lhsContracting := [1]
  rhsContracting := [0]
  lhsNonContracting := [0]
  rhsNonContracting := [1]
  lhsBatch := []
  rhsBatch := []
  wf := dot_S10000x64_S64x48_S10000x48_1_0_0_1_n_n_wf
def scatter_S128x48_S50000x1_S50000x48_1_0_0_1 : ScatterDims S128x48 S50000x1 S50000x48 where
  updateWindowDims := [1]
  insertedWindowDims := [0]
  scatterDimsToOperandDims := [0]
  indexVectorDim := 1
  wf := scatter_S128x48_S50000x1_S50000x48_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def scatter_S128x48_S800000x1_S800000x48_1_0_0_1 : ScatterDims S128x48 S800000x1 S800000x48 where
  updateWindowDims := [1]
  insertedWindowDims := [0]
  scatterDimsToOperandDims := [0]
  indexVectorDim := 1
  wf := scatter_S128x48_S800000x1_S800000x48_1_0_0_1_wf
def scatter_S128x1_S800000x1_S800000x1_1_0_0_1 : ScatterDims S128x1 S800000x1 S800000x1 where
  updateWindowDims := [1]
  insertedWindowDims := [0]
  scatterDimsToOperandDims := [0]
  indexVectorDim := 1
  wf := scatter_S128x1_S800000x1_S800000x1_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_v5) S8000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S8000x48.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S176x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S64x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x48.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S8000x48.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v23) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S64x48.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x48.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x48.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x48.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S10000x48.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v54) S128x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S128x32.size cc2_transform_7 reads2_7 true false 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x48 : Shape := ⟨2, ![50000, 48]⟩
abbrev S800000x48 : Shape := ⟨2, ![800000, 48]⟩
abbrev S128x32 : Shape := ⟨2, ![128, 32]⟩
abbrev S2x800000 : Shape := ⟨2, ![2, 800000]⟩
abbrev S50000 : Shape := ⟨1, ![50000]⟩
abbrev S800000 : Shape := ⟨1, ![800000]⟩
abbrev S176x64 : Shape := ⟨2, ![176, 64]⟩
abbrev S64 : Shape := ⟨1, ![64]⟩
abbrev S64x48 : Shape := ⟨2, ![64, 48]⟩
abbrev S48 : Shape := ⟨1, ![48]⟩
abbrev S128x64 : Shape := ⟨2, ![128, 64]⟩
abbrev S64x32 : Shape := ⟨2, ![64, 32]⟩
abbrev S32 : Shape := ⟨1, ![32]⟩
abbrev S1x800000 : Shape := ⟨2, ![1, 800000]⟩
abbrev S_ : Shape := ⟨0, ![]⟩
abbrev S800000x1 : Shape := ⟨2, ![800000, 1]⟩
abbrev S800000x32 : Shape := ⟨2, ![800000, 32]⟩
abbrev S800000x176 : Shape := ⟨2, ![800000, 176]⟩
abbrev S800000x64 : Shape := ⟨2, ![800000, 64]⟩
abbrev S1x64 : Shape := ⟨2, ![1, 64]⟩
abbrev S1x48 : Shape := ⟨2, ![1, 48]⟩
abbrev S50000x1 : Shape := ⟨2, ![50000, 1]⟩
abbrev S50000x32 : Shape := ⟨2, ![50000, 32]⟩
abbrev S50000x128 : Shape := ⟨2, ![50000, 128]⟩
abbrev S50000x64 : Shape := ⟨2, ![50000, 64]⟩
abbrev S128x48 : Shape := ⟨2, ![128, 48]⟩
abbrev S128x1 : Shape := ⟨2, ![128, 1]⟩
abbrev S128x128 : Shape := ⟨2, ![128, 128]⟩
abbrev S1x32 : Shape := ⟨2, ![1, 32]⟩
abbrev S128 : Shape := ⟨1, ![128]⟩

abbrev nBuf : Space → Nat
  | .hbm => 230
  | .vmem => 0
  | .smem => 0
  | _ => 0

abbrev hbmTy0_0 (i : Nat) : BufTy := match i % 128 with
  | 0 => ⟨S50000x48, .f32⟩
  | 1 => ⟨S800000x48, .f32⟩
  | 2 => ⟨S128x32, .f32⟩
  | 3 => ⟨S2x800000, .i32⟩
  | 4 => ⟨S50000, .i32⟩
  | 5 => ⟨S800000, .i32⟩
  | 6 => ⟨S176x64, .f32⟩
  | 7 => ⟨S64, .f32⟩
  | 8 => ⟨S64x48, .f32⟩
  | 9 => ⟨S48, .f32⟩
  | 10 => ⟨S48, .f32⟩
  | 11 => ⟨S48, .f32⟩
  | 12 => ⟨S128x64, .f32⟩
  | 13 => ⟨S64, .f32⟩
  | 14 => ⟨S64x48, .f32⟩
  | 15 => ⟨S48, .f32⟩
  | 16 => ⟨S48, .f32⟩
  | 17 => ⟨S48, .f32⟩
  | 18 => ⟨S128x64, .f32⟩
  | 19 => ⟨S64, .f32⟩
  | 20 => ⟨S64x32, .f32⟩
  | 21 => ⟨S32, .f32⟩
  | 22 => ⟨S32, .f32⟩
  | 23 => ⟨S32, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x48, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x48, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x32, .f32⟩
  | 55 => ⟨S800000x176, .f32⟩
  | 56 => ⟨S800000x64, .f32⟩
  | 57 => ⟨S1x64, .f32⟩
  | 58 => ⟨S800000x64, .f32⟩
  | 59 => ⟨S800000x64, .f32⟩
  | 60 => ⟨S_, .f32⟩
  | 61 => ⟨S800000x64, .f32⟩
  | 62 => ⟨S800000x64, .f32⟩
  | 63 => ⟨S800000x48, .f32⟩
  | 64 => ⟨S1x48, .f32⟩
  | 65 => ⟨S800000x48, .f32⟩
  | 66 => ⟨S800000x48, .f32⟩
  | 67 => ⟨S_, .f32⟩
  | 68 => ⟨S800000x48, .f32⟩
  | 69 => ⟨S800000x48, .f32⟩
  | 70 => ⟨S_, .f32⟩
  | 71 => ⟨S800000, .f32⟩
  | 72 => ⟨S800000x1, .f32⟩
  | 73 => ⟨S_, .f32⟩
  | 74 => ⟨S800000x1, .f32⟩
  | 75 => ⟨S800000x1, .f32⟩
  | 76 => ⟨S800000x48, .f32⟩
  | 77 => ⟨S800000x48, .f32⟩
  | 78 => ⟨S800000x48, .f32⟩
  | 79 => ⟨S_, .f32⟩
  | 80 => ⟨S800000, .f32⟩
  | 81 => ⟨S800000x1, .f32⟩
  | 82 => ⟨S_, .f32⟩
  | 83 => ⟨S800000x1, .f32⟩
  | 84 => ⟨S800000x1, .f32⟩
  | 85 => ⟨S800000x48, .f32⟩
  | 86 => ⟨S800000x48, .f32⟩
  | 87 => ⟨S_, .f32⟩
  | 88 => ⟨S800000x1, .f32⟩
  | 89 => ⟨S800000x1, .f32⟩
  | 90 => ⟨S800000x1, .f32⟩
  | 91 => ⟨S800000x48, .f32⟩
  | 92 => ⟨S800000x48, .f32⟩
  | 93 => ⟨S1x48, .f32⟩
  | 94 => ⟨S800000x48, .f32⟩
  | 95 => ⟨S800000x48, .f32⟩
  | 96 => ⟨S1x48, .f32⟩
  | 97 => ⟨S800000x48, .f32⟩
  | 98 => ⟨S800000x48, .f32⟩
  | 99 => ⟨S_, .f32⟩
  | 100 => ⟨S50000x48, .f32⟩
  | 101 => ⟨S800000x1, .i32⟩
  | 102 => ⟨S50000x48, .f32⟩
  | 103 => ⟨S_, .i32⟩
  | 104 => ⟨S50000, .i32⟩
  | 105 => ⟨S50000, .i1⟩
  | 106 => ⟨S_, .i32⟩
  | 107 => ⟨S50000, .i32⟩
  | 108 => ⟨S50000, .i32⟩
  | 109 => ⟨S50000, .i32⟩
  | 110 => ⟨S50000x1, .i32⟩
  | 111 => ⟨S50000x32, .f32⟩
  | 112 => ⟨S50000x128, .f32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x48, .f32⟩
  | 121 => ⟨S1x48, .f32⟩
  | 122 => ⟨S50000x48, .f32⟩
  | 123 => ⟨S50000x48, .f32⟩
  | 124 => ⟨S_, .f32⟩
  | 125 => ⟨S50000x48, .f32⟩
  | 126 => ⟨S50000x48, .f32⟩
  | 127 => ⟨S_, .f32⟩
  | _ => ⟨S50000x48, .f32⟩

abbrev hbmTy0_1 (i : Nat) : BufTy := match i % 128 with
  | 0 => ⟨S50000, .f32⟩
  | 1 => ⟨S50000x1, .f32⟩
  | 2 => ⟨S_, .f32⟩
  | 3 => ⟨S50000x1, .f32⟩
  | 4 => ⟨S50000x1, .f32⟩
  | 5 => ⟨S50000x48, .f32⟩
  | 6 => ⟨S50000x48, .f32⟩
  | 7 => ⟨S50000x48, .f32⟩
  | 8 => ⟨S_, .f32⟩
  | 9 => ⟨S50000, .f32⟩
  | 10 => ⟨S50000x1, .f32⟩
  | 11 => ⟨S_, .f32⟩
  | 12 => ⟨S50000x1, .f32⟩
  | 13 => ⟨S50000x1, .f32⟩
  | 14 => ⟨S50000x48, .f32⟩
  | 15 => ⟨S50000x48, .f32⟩
  | 16 => ⟨S_, .f32⟩
  | 17 => ⟨S50000x1, .f32⟩
  | 18 => ⟨S50000x1, .f32⟩
  | 19 => ⟨S50000x1, .f32⟩
  | 20 => ⟨S50000x48, .f32⟩
  | 21 => ⟨S50000x48, .f32⟩
  | 22 => ⟨S1x48, .f32⟩
  | 23 => ⟨S50000x48, .f32⟩
  | 24 => ⟨S50000x48, .f32⟩
  | 25 => ⟨S1x48, .f32⟩
  | 26 => ⟨S50000x48, .f32⟩
  | 27 => ⟨S50000x48, .f32⟩
  | 28 => ⟨S_, .f32⟩
  | 29 => ⟨S128x48, .f32⟩
  | 30 => ⟨S50000x1, .i32⟩
  | 31 => ⟨S128x48, .f32⟩
  | 32 => ⟨S_, .f32⟩
  | 33 => ⟨S50000x1, .f32⟩
  | 34 => ⟨S_, .f32⟩
  | 35 => ⟨S128x1, .f32⟩
  | 36 => ⟨S50000x1, .i32⟩
  | 37 => ⟨S128x1, .f32⟩
  | 38 => ⟨S_, .f32⟩
  | 39 => ⟨S128x1, .f32⟩
  | 40 => ⟨S128x1, .f32⟩
  | 41 => ⟨S128x48, .f32⟩
  | 42 => ⟨S128x48, .f32⟩
  | 43 => ⟨S_, .f32⟩
  | 44 => ⟨S128x48, .f32⟩
  | 45 => ⟨S800000x1, .i32⟩
  | 46 => ⟨S128x48, .f32⟩
  | 47 => ⟨S_, .f32⟩
  | 48 => ⟨S800000x1, .f32⟩
  | 49 => ⟨S_, .f32⟩
  | 50 => ⟨S128x1, .f32⟩
  | 51 => ⟨S800000x1, .i32⟩
  | 52 => ⟨S128x1, .f32⟩
  | 53 => ⟨S_, .f32⟩
  | 54 => ⟨S128x1, .f32⟩
  | 55 => ⟨S128x1, .f32⟩
  | 56 => ⟨S128x48, .f32⟩
  | 57 => ⟨S128x48, .f32⟩
  | 58 => ⟨S128x128, .f32⟩
  | 59 => ⟨S128x64, .f32⟩
  | 60 => ⟨S1x64, .f32⟩
  | 61 => ⟨S128x64, .f32⟩
  | 62 => ⟨S128x64, .f32⟩
  | 63 => ⟨S_, .f32⟩
  | 64 => ⟨S128x64, .f32⟩
  | 65 => ⟨S128x64, .f32⟩
  | 66 => ⟨S128x32, .f32⟩
  | 67 => ⟨S1x32, .f32⟩
  | 68 => ⟨S128x32, .f32⟩
  | 69 => ⟨S128x32, .f32⟩
  | 70 => ⟨S_, .f32⟩
  | 71 => ⟨S128x32, .f32⟩
  | 72 => ⟨S128x32, .f32⟩
  | 73 => ⟨S_, .f32⟩
  | 74 => ⟨S128, .f32⟩
  | 75 => ⟨S128x1, .f32⟩
  | 76 => ⟨S_, .f32⟩
  | 77 => ⟨S128x1, .f32⟩
  | 78 => ⟨S128x1, .f32⟩
  | 79 => ⟨S128x32, .f32⟩
  | 80 => ⟨S128x32, .f32⟩
  | 81 => ⟨S128x32, .f32⟩
  | 82 => ⟨S_, .f32⟩
  | 83 => ⟨S128, .f32⟩
  | 84 => ⟨S128x1, .f32⟩
  | 85 => ⟨S_, .f32⟩
  | 86 => ⟨S128x1, .f32⟩
  | 87 => ⟨S128x1, .f32⟩
  | 88 => ⟨S128x32, .f32⟩
  | 89 => ⟨S128x32, .f32⟩
  | 90 => ⟨S_, .f32⟩
  | 91 => ⟨S128x1, .f32⟩
  | 92 => ⟨S128x1, .f32⟩
  | 93 => ⟨S128x1, .f32⟩
  | 94 => ⟨S128x32, .f32⟩
  | 95 => ⟨S128x32, .f32⟩
  | 96 => ⟨S1x32, .f32⟩
  | 97 => ⟨S128x32, .f32⟩
  | 98 => ⟨S128x32, .f32⟩
  | 99 => ⟨S1x32, .f32⟩
  | 100 => ⟨S128x32, .f32⟩
  | 101 => ⟨S128x32, .f32⟩
  | _ => ⟨S50000x48, .f32⟩

abbrev hbmTy (i : Nat) : BufTy := match i / 128 with
  | 0 => hbmTy0_0 i
  | 1 => hbmTy0_1 i
  | _ => ⟨S50000x48, .f32⟩

abbrev bufTy : (tb : Table) → Fin (tcTables nBuf tb) → BufTy
  | .hbm, ⟨i, _⟩ => hbmTy i
  | _, _ => ⟨S50000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_1 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_call0_cst : Ref sig .tc := ⟨.hbm, 60, rfl⟩
abbrev main_call0_v0 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_call1_cst : Ref sig .tc := ⟨.hbm, 67, rfl⟩
abbrev main_call1_v0 : Ref sig .tc := ⟨.hbm, 68, rfl⟩
abbrev main_v35 : Ref sig .tc := ⟨.hbm, 69, rfl⟩
abbrev main_cst : Ref sig .tc := ⟨.hbm, 70, rfl⟩
abbrev main_v36 : Ref sig .tc := ⟨.hbm, 71, rfl⟩
abbrev main_v37 : Ref sig .tc := ⟨.hbm, 72, rfl⟩
abbrev main_cst_5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_6 : Ref sig .tc := ⟨.hbm, 79, rfl⟩
abbrev main_v43 : Ref sig .tc := ⟨.hbm, 80, rfl⟩
abbrev main_v44 : Ref sig .tc := ⟨.hbm, 81, rfl⟩
abbrev main_cst_7 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_8 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_9 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_10 : Ref sig .tc := ⟨.hbm, 103, rfl⟩
abbrev main_v63 : Ref sig .tc := ⟨.hbm, 104, rfl⟩
abbrev main_v64 : Ref sig .tc := ⟨.hbm, 105, rfl⟩
abbrev main_c_11 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_call2_cst : Ref sig .tc := ⟨.hbm, 117, rfl⟩
abbrev main_call2_v0 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_call3_cst : Ref sig .tc := ⟨.hbm, 124, rfl⟩
abbrev main_call3_v0 : Ref sig .tc := ⟨.hbm, 125, rfl⟩
abbrev main_v80 : Ref sig .tc := ⟨.hbm, 126, rfl⟩
abbrev main_cst_12 : Ref sig .tc := ⟨.hbm, 127, rfl⟩
abbrev main_v81 : Ref sig .tc := ⟨.hbm, 128, rfl⟩
abbrev main_v82 : Ref sig .tc := ⟨.hbm, 129, rfl⟩
abbrev main_cst_13 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_14 : Ref sig .tc := ⟨.hbm, 136, rfl⟩
abbrev main_v88 : Ref sig .tc := ⟨.hbm, 137, rfl⟩
abbrev main_v89 : Ref sig .tc := ⟨.hbm, 138, rfl⟩
abbrev main_cst_15 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_16 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_17 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_18 : Ref sig .tc := ⟨.hbm, 160, rfl⟩
abbrev main_v108 : Ref sig .tc := ⟨.hbm, 161, rfl⟩
abbrev main_cst_19 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_20 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_21 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_22 : Ref sig .tc := ⟨.hbm, 175, rfl⟩
abbrev main_v119 : Ref sig .tc := ⟨.hbm, 176, rfl⟩
abbrev main_cst_23 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_24 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_call4_cst : Ref sig .tc := ⟨.hbm, 191, rfl⟩
abbrev main_call4_v0 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_call5_cst : Ref sig .tc := ⟨.hbm, 198, rfl⟩
abbrev main_call5_v0 : Ref sig .tc := ⟨.hbm, 199, rfl⟩
abbrev main_v137 : Ref sig .tc := ⟨.hbm, 200, rfl⟩
abbrev main_cst_25 : Ref sig .tc := ⟨.hbm, 201, rfl⟩
abbrev main_v138 : Ref sig .tc := ⟨.hbm, 202, rfl⟩
abbrev main_v139 : Ref sig .tc := ⟨.hbm, 203, rfl⟩
abbrev main_cst_26 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_cst_27 : Ref sig .tc := ⟨.hbm, 210, rfl⟩
abbrev main_v145 : Ref sig .tc := ⟨.hbm, 211, rfl⟩
abbrev main_v146 : Ref sig .tc := ⟨.hbm, 212, rfl⟩
abbrev main_cst_28 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_cst_29 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x48_S800000x48_S800000x48_S800000x32_S800000x176_d1 : Shape.Concatenates [S800000x48, S800000x48, S800000x48, S800000x32] S800000x176 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S48_S1x48_1 : S48.BroadcastsInDim S1x48 (![1] : Fin 1 → Fin S1x48.rank)
  bcast_S1x48_S800000x48_0_1 : S1x48.BroadcastsInDim S800000x48 (![0, 1] : Fin 2 → Fin S800000x48.rank)
  bcast_S_S800000x48 : S_.BroadcastsInDim S800000x48 (![] : Fin 0 → Fin S800000x48.rank)
  reducesTo_S800000x48_S800000_d1 : S800000x48.ReducesTo [1] S800000
  h_S_ : 0 < S_.numel
  bcast_S_S800000x1 : S_.BroadcastsInDim S800000x1 (![] : Fin 0 → Fin S800000x1.rank)
  bcast_S800000x1_S800000x48_0_1 : S800000x1.BroadcastsInDim S800000x48 (![0, 1] : Fin 2 → Fin S800000x48.rank)
  bcast_S_S50000x48 : S_.BroadcastsInDim S50000x48 (![] : Fin 0 → Fin S50000x48.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x48_S50000x48_S50000x32_S50000x128_d1 : Shape.Concatenates [S50000x48, S50000x48, S50000x32] S50000x128 1
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x48_S50000x48_0_1 : S1x48.BroadcastsInDim S50000x48 (![0, 1] : Fin 2 → Fin S50000x48.rank)
  reducesTo_S50000x48_S50000_d1 : S50000x48.ReducesTo [1] S50000
  bcast_S_S50000x1 : S_.BroadcastsInDim S50000x1 (![] : Fin 0 → Fin S50000x1.rank)
  bcast_S50000x1_S50000x48_0_1 : S50000x1.BroadcastsInDim S50000x48 (![0, 1] : Fin 2 → Fin S50000x48.rank)
  bcast_S_S128x48 : S_.BroadcastsInDim S128x48 (![] : Fin 0 → Fin S128x48.rank)
  bcast_S_S128x1 : S_.BroadcastsInDim S128x1 (![] : Fin 0 → Fin S128x1.rank)
  bcast_S128x1_S128x48_0_1 : S128x1.BroadcastsInDim S128x48 (![0, 1] : Fin 2 → Fin S128x48.rank)
  concatenates_S128x32_S128x48_S128x48_S128x128_d1 : Shape.Concatenates [S128x32, S128x48, S128x48] S128x128 1
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  reducesTo_S128x32_S128_d1 : S128x32.ReducesTo [1] S128
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  gather_S50000x48_S800000x1_S800000x48_1_0_n_n_0_1_148_wf : GatherDims.WF S50000x48 S800000x1 S800000x48 [1] [0] [] [0] [] 1 ![1, 48]
  gather_S128x32_S800000x1_S800000x32_1_0_n_n_0_1_132_wf : GatherDims.WF S128x32 S800000x1 S800000x32 [1] [0] [] [0] [] 1 ![1, 32]
  dot_S800000x176_S176x64_S800000x64_1_0_0_1_n_n_wf : DotDims.WF S800000x176 S176x64 S800000x64 [1] [0] [0] [1] [] []
  dot_S800000x64_S64x48_S800000x48_1_0_0_1_n_n_wf : DotDims.WF S800000x64 S64x48 S800000x48 [1] [0] [0] [1] [] []
  scatter_S50000x48_S800000x1_S800000x48_1_0_0_1_wf : ScatterDims.WF S50000x48 S800000x1 S800000x48 [1] [0] [0] 1
  gather_S128x32_S50000x1_S50000x32_1_0_n_n_0_1_132_wf : GatherDims.WF S128x32 S50000x1 S50000x32 [1] [0] [] [0] [] 1 ![1, 32]
  dot_S50000x128_S128x64_S50000x64_1_0_0_1_n_n_wf : DotDims.WF S50000x128 S128x64 S50000x64 [1] [0] [0] [1] [] []
  dot_S50000x64_S64x48_S50000x48_1_0_0_1_n_n_wf : DotDims.WF S50000x64 S64x48 S50000x48 [1] [0] [0] [1] [] []
  scatter_S128x48_S50000x1_S50000x48_1_0_0_1_wf : ScatterDims.WF S128x48 S50000x1 S50000x48 [1] [0] [0] 1
  scatter_S128x1_S50000x1_S50000x1_1_0_0_1_wf : ScatterDims.WF S128x1 S50000x1 S50000x1 [1] [0] [0] 1
  scatter_S128x48_S800000x1_S800000x48_1_0_0_1_wf : ScatterDims.WF S128x48 S800000x1 S800000x48 [1] [0] [0] 1
  scatter_S128x1_S800000x1_S800000x1_1_0_0_1_wf : ScatterDims.WF S128x1 S800000x1 S800000x1 [1] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []

variable [Facts₀]

def gather_S50000x48_S800000x1_S800000x48_1_0_n_n_0_1_148 : GatherDims S50000x48 S800000x1 S800000x48 where
  offsetDims := [1]
  collapsedSliceDims := [0]
  operandBatchingDims := []
  startIndicesBatchingDims := []
  startIndexMap := [0]
  indexVectorDim := 1
  sliceSizes := ![1, 48]
  wf := gather_S50000x48_S800000x1_S800000x48_1_0_n_n_0_1_148_wf
def gather_S128x32_S800000x1_S800000x32_1_0_n_n_0_1_132 : GatherDims S128x32 S800000x1 S800000x32 where
  offsetDims := [1]
  collapsedSliceDims := [0]
  operandBatchingDims := []
  startIndicesBatchingDims := []
  startIndexMap := [0]
  indexVectorDim := 1
  sliceSizes := ![1, 32]
  wf := gather_S128x32_S800000x1_S800000x32_1_0_n_n_0_1_132_wf
def dot_S800000x176_S176x64_S800000x64_1_0_0_1_n_n : DotDims S800000x176 S176x64 S800000x64 where
  lhsContracting := [1]
  rhsContracting := [0]
  lhsNonContracting := [0]
  rhsNonContracting := [1]
  lhsBatch := []
  rhsBatch := []
  wf := dot_S800000x176_S176x64_S800000x64_1_0_0_1_n_n_wf
def dot_S800000x64_S64x48_S800000x48_1_0_0_1_n_n : DotDims S800000x64 S64x48 S800000x48 where
  lhsContracting := [1]
  rhsContracting := [0]
  lhsNonContracting := [0]
  rhsNonContracting := [1]
  lhsBatch := []
  rhsBatch := []
  wf := dot_S800000x64_S64x48_S800000x48_1_0_0_1_n_n_wf
def scatter_S50000x48_S800000x1_S800000x48_1_0_0_1 : ScatterDims S50000x48 S800000x1 S800000x48 where
  updateWindowDims := [1]
  insertedWindowDims := [0]
  scatterDimsToOperandDims := [0]
  indexVectorDim := 1
  wf := scatter_S50000x48_S800000x1_S800000x48_1_0_0_1_wf
def gather_S128x32_S50000x1_S50000x32_1_0_n_n_0_1_132 : GatherDims S128x32 S50000x1 S50000x32 where
  offsetDims := [1]
  collapsedSliceDims := [0]
  operandBatchingDims := []
  startIndicesBatchingDims := []
  startIndexMap := [0]
  indexVectorDim := 1
  sliceSizes := ![1, 32]
  wf := gather_S128x32_S50000x1_S50000x32_1_0_n_n_0_1_132_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x48_S50000x48_1_0_0_1_n_n : DotDims S50000x64 S64x48 S50000x48 where
  lhsContracting := [1]
  rhsContracting := [0]
  lhsNonContracting := [0]
  rhsNonContracting := [1]
  lhsBatch := []
  rhsBatch := []
  wf := dot_S50000x64_S64x48_S50000x48_1_0_0_1_n_n_wf
def scatter_S128x48_S50000x1_S50000x48_1_0_0_1 : ScatterDims S128x48 S50000x1 S50000x48 where
  updateWindowDims := [1]
  insertedWindowDims := [0]
  scatterDimsToOperandDims := [0]
  indexVectorDim := 1
  wf := scatter_S128x48_S50000x1_S50000x48_1_0_0_1_wf
def scatter_S128x1_S50000x1_S50000x1_1_0_0_1 : ScatterDims S128x1 S50000x1 S50000x1 where
  updateWindowDims := [1]
  insertedWindowDims := [0]
  scatterDimsToOperandDims := [0]
  indexVectorDim := 1
  wf := scatter_S128x1_S50000x1_S50000x1_1_0_0_1_wf
def scatter_S128x48_S800000x1_S800000x48_1_0_0_1 : ScatterDims S128x48 S800000x1 S800000x48 where
  updateWindowDims := [1]
  insertedWindowDims := [0]
  scatterDimsToOperandDims := [0]
  indexVectorDim := 1
  wf := scatter_S128x48_S800000x1_S800000x48_1_0_0_1_wf
def scatter_S128x1_S800000x1_S800000x1_1_0_0_1 : ScatterDims S128x1 S800000x1 S800000x1 where
  updateWindowDims := [1]
  insertedWindowDims := [0]
  scatterDimsToOperandDims := [0]
  indexVectorDim := 1
  wf := scatter_S128x1_S800000x1_S800000x1_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.BitsFrameEdge.lean ====
import proofs.«416324_j14577119003008_3_alg».proof.Proof.Gen.Kernel.Launch
import proofs.«416324_j14577119003008_3_alg».proof.Proof.Gen.Kernel.Skeleton
import proofs.«416324_j14577119003008_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_10 (x0 : Vec F S8000x48 .bf16) (x1 : Vec F S8000x48 .bf16) (x2 : Vec F S8000x48 .bf16) (x3 : Vec F S8000x32 .bf16) (x4 : Vec F S176x64 .bf16) (x5 : Vec F S1x64 .f32) (x6 : Vec F S64x48 .bf16) (x7 : Vec F S1x48 .f32) (x8 : Vec F S1x48 .f32) (x9 : Vec F S1x48 .f32) : Vec F S8000x48 .f32 :=
  View.canon [⟨Rect.unit (s := S8000x48) ![0, 0] S8000x48.size inb_S8000x48_S8000x48_0_0, k0_pay1 (k0_pay2 (View.ld x0 (Rect.unit (s := S8000x48) ![0, 0] S8000x48.size inb_S8000x48_S8000x48_0_0)) (View.ld x1 (Rect.unit (s := S8000x48) ![0, 0] S8000x48.size inb_S8000x48_S8000x48_0_0)) (View.ld x2 (Rect.unit (s := S8000x48) ![0, 0] S8000x48.size inb_S8000x48_S8000x48_0_0)) (View.ld x3 (Rect.unit (s := S8000x32) ![0, 0] S8000x32.size inb_S8000x32_S8000x32_0_0)) (View.ld x4 (Rect.unit (s := S176x64) ![0, 0] S176x64.size inb_S176x64_S176x64_0_0)) (View.ld x5 (Rect.unit (s := S1x64) ![0, 0] S1x64.size inb_S1x64_S1x64_0_0)) (View.ld x6 (Rect.unit (s := S64x48) ![0, 0] S64x48.size inb_S64x48_S64x48_0_0)) (View.ld x7 (Rect.unit (s := S1x48) ![0, 0] S1x48.size inb_S1x48_S1x48_0_0))) (k0_pay3 (View.ld x0 (Rect.unit (s := S8000x48) ![0, 0] S8000x48.size inb_S8000x48_S8000x48_0_0)) (View.ld x1 (Rect.unit (s := S8000x48) ![0, 0] S8000x48.size inb_S8000x48_S8000x48_0_0)) (View.ld x2 (Rect.unit (s := S8000x48) ![0, 0] S8000x48.size inb_S8000x48_S8000x48_0_0)) (View.ld x3 (Rect.unit (s := S8000x32) ![0, 0] S8000x32.size inb_S8000x32_S8000x32_0_0)) (View.ld x4 (Rect.unit (s := S176x64) ![0, 0] S176x64.size inb_S176x64_S176x64_0_0)) (View.ld x5 (Rect.unit (s := S1x64) ![0, 0] S1x64.size inb_S1x64_S1x64_0_0)) (View.ld x6 (Rect.unit (s := S64x48) ![0, 0] S64x48.size inb_S64x48_S64x48_0_0)) (View.ld x7 (Rect.unit (s := S1x48) ![0, 0] S1x48.size inb_S1x48_S1x48_0_0))) (k0_pay4 (View.ld x0 (Rect.unit (s := S8000x48) ![0, 0] S8000x48.size inb_S8000x48_S8000x48_0_0)) (View.ld x1 (Rect.unit (s := S8000x48) ![0, 0] S8000x48.size inb_S8000x48_S8000x48_0_0)) (View.ld x2 (Rect.unit (s := S8000x48) ![0, 0] S8000x48.size inb_S8000x48_S8000x48_0_0)) (View.ld x3 (Rect.unit (s := S8000x32) ![0, 0] S8000x32.size inb_S8000x32_S8000x32_0_0)) (View.ld x4 (Rect.unit (s := S176x64) ![0, 0] S176x64.size inb_S176x64_S176x64_0_0)) (View.ld x5 (Rect.unit (s := S1x64) ![0, 0] S1x64.size inb_S1x64_S1x64_0_0)) (View.ld x6 (Rect.unit (s := S64x48) ![0, 0] S64x48.size inb_S64x48_S64x48_0_0)) (View.ld x7 (Rect.unit (s := S1x48) ![0, 0] S1x48.size inb_S1x48_S1x48_0_0))) (View.ld x8 (Rect.unit (s := S1x48) ![0, 0] S1x48.size inb_S1x48_S1x48_0_0)) (View.ld x9 (Rect.unit (s := S1x48) ![0, 0] S1x48.size inb_S1x48_S1x48_0_0))⟩]

/-- The body leaves its inputs as they are and the output block at `out0_10` of them. -/
theorem sound_kernel0 (c : Dev nD) (E : Set ℕ) {i a0 h0 a1 h1 a2 h2 a3 h3 a4 h4 a5 h5 a6 h6 a7 h7 a8 h8 a9 h9 a10 h10 x0 x1 x2 x3 x4 x5 x6 x7 x8 x9 d} {K : PUnit → sProp 𝕄} :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare d
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare (out0_10 x0 x1 x2 x3 x4 x5 x6 x7 x8 x9)) -∗ K ⟨⟩))
      ⊢ wp frame (wpE (defs₀ (F := F)) Variants.none c none) E (cc0__edge_mlp_kernel i a0 h0 a1 h1 a2 h2 a3 h3 a4 h4 a5 h5 a6 h6 a7 h7 a8 h8 a9 h9 a10 h10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (View.cover_of_tiled _ S8000x48.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Before the body, at every grid point, each input window holds its block of the array. -/
theorem before0 (c : Dev nD) (t : Fin cfg0.N) (w : Fin cfg0.W) (d) (h : w ≠ 10) : (dat0 V c).before w t d = (dat0 V c).after w t := by
  fin_cases w
  all_goals first | exact absurd rfl h | exact (dat0 V c).before_in_eq_fetched _ rfl (fun _ => rfl) (fun _ _ _ => rfl) (fun _ => rfl) t d

/-- The body's triple, at every grid point. -/
theorem body_obligation0 (c : Dev nD) : BodyObligation (dat0 (F := F) V c) (defs₀ (F := F)) Variants.none () Set.univ := fun t => by
  rw [bigSep_W0, bigSep_W0]
  rewrite [show (dat0 V c).owesAt () t.succ = (dat0 V c).owesAt () t.castSucc from rfl]
  simp (disch := decide) only [before0 V c t]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel0 c Set.univ
  iframe
  iintro H
  iexact H

end Cert.Kernel.Frame
-- ==== Proof.BitsFrameNode.lean ====
import proofs.«416324_j14577119003008_3_alg».proof.Proof.Gen.Kernel.Launch
import proofs.«416324_j14577119003008_3_alg».proof.Proof.Gen.Kernel.Skeleton
import proofs.«416324_j14577119003008_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_9 (x0 : Vec F S10000x48 .bf16) (x1 : Vec F S10000x48 .bf16) (x2 : Vec F S10000x32 .bf16) (x3 : Vec F S128x64 .bf16) (x4 : Vec F S1x64 .f32) (x5 : Vec F S64x48 .bf16) (x6 : Vec F S1x48 .f32) (x7 : Vec F S1x48 .f32) (x8 : Vec F S1x48 .f32) : Vec F S10000x48 .f32 :=
  View.canon [⟨Rect.unit (s := S10000x48) ![0, 0] S10000x48.size inb_S10000x48_S10000x48_0_0,
    k1_pay1 (k1_pay2 (View.ld x0 (Rect.unit (s := S10000x48) ![0, 0] S10000x48.size inb_S10000x48_S10000x48_0_0)) (View.ld x1 (Rect.unit (s := S10000x48) ![0, 0] S10000x48.size inb_S10000x48_S10000x48_0_0)) (View.ld x2 (Rect.unit (s := S10000x32) ![0, 0] S10000x32.size inb_S10000x32_S10000x32_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x48) ![0, 0] S64x48.size inb_S64x48_S64x48_0_0)) (View.ld x6 (Rect.unit (s := S1x48) ![0, 0] S1x48.size inb_S1x48_S1x48_0_0)))
      (k1_pay3 (View.ld x0 (Rect.unit (s := S10000x48) ![0, 0] S10000x48.size inb_S10000x48_S10000x48_0_0)) (View.ld x1 (Rect.unit (s := S10000x48) ![0, 0] S10000x48.size inb_S10000x48_S10000x48_0_0)) (View.ld x2 (Rect.unit (s := S10000x32) ![0, 0] S10000x32.size inb_S10000x32_S10000x32_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x48) ![0, 0] S64x48.size inb_S64x48_S64x48_0_0)) (View.ld x6 (Rect.unit (s := S1x48) ![0, 0] S1x48.size inb_S1x48_S1x48_0_0)))
      (k1_pay4 (View.ld x0 (Rect.unit (s := S10000x48) ![0, 0] S10000x48.size inb_S10000x48_S10000x48_0_0)) (View.ld x1 (Rect.unit (s := S10000x48) ![0, 0] S10000x48.size inb_S10000x48_S10000x48_0_0)) (View.ld x2 (Rect.unit (s := S10000x32) ![0, 0] S10000x32.size inb_S10000x32_S10000x32_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x48) ![0, 0] S64x48.size inb_S64x48_S64x48_0_0)) (View.ld x6 (Rect.unit (s := S1x48) ![0, 0] S1x48.size inb_S1x48_S1x48_0_0)))
      (View.ld x7 (Rect.unit (s := S1x48) ![0, 0] S1x48.size inb_S1x48_S1x48_0_0)) (View.ld x8 (Rect.unit (s := S1x48) ![0, 0] S1x48.size inb_S1x48_S1x48_0_0))⟩]

/-- The body leaves its inputs as they are and the output block at `out1_9` of them. -/
theorem sound_kernel1 (c : Dev nD) (E : Set ℕ) {i a0 h0 a1 h1 a2 h2 a3 h3 a4 h4 a5 h5 a6 h6 a7 h7 a8 h8 a9 h9 x0 x1 x2 x3 x4 x5 x6 x7 x8 d} {K : PUnit → sProp 𝕄} :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare d
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare (out1_9 x0 x1 x2 x3 x4 x5 x6 x7 x8)) -∗ K ⟨⟩))
      ⊢ wp frame (wpE (defs₀ (F := F)) Variants.none c none) E (cc1__node_mlp_kernel i a0 h0 a1 h1 a2 h2 a3 h3 a4 h4 a5 h5 a6 h6 a7 h7 a8 h8 a9 h9) K := by
  simp only [cc1__node_mlp_kernel_eq_skeleton]; unfold cc1__node_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (View.cover_of_tiled _ S10000x48.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Before the body, at every grid point, each input window holds its block of the array. -/
theorem before1 (c : Dev nD) (t : Fin cfg1.N) (w : Fin cfg1.W) (d) (h : w ≠ 9) : (dat1 V c).before w t d = (dat1 V c).after w t := by
  fin_cases w
  all_goals first | exact absurd rfl h | exact (dat1 V c).before_in_eq_fetched _ rfl (fun _ => rfl) (fun _ _ _ => rfl) (fun _ => rfl) t d

/-- The body's triple, at every grid point. -/
theorem body_obligation1 (c : Dev nD) : BodyObligation (dat1 (F := F) V c) (defs₀ (F := F)) Variants.none () Set.univ := fun t => by
  rw [bigSep_W1, bigSep_W1]
  rewrite [show (dat1 V c).owesAt () t.succ = (dat1 V c).owesAt () t.castSucc from rfl]
  simp (disch := decide) only [before1 V c t]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel1 c Set.univ
  iframe
  iintro H
  iexact H

end Cert.Kernel.Frame

end
-- ==== Proof.BitsFrameGlobal.lean ====
import proofs.«416324_j14577119003008_3_alg».proof.Proof.Gen.Kernel.Launch
import proofs.«416324_j14577119003008_3_alg».proof.Proof.Gen.Kernel.Skeleton
import proofs.«416324_j14577119003008_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S128x128 .f32) (x1 : Vec F S128x64 .f32) (x2 : Vec F S1x64 .f32) (x3 : Vec F S64x32 .f32) (x4 : Vec F S1x32 .f32) (x5 : Vec F S1x32 .f32) (x6 : Vec F S1x32 .f32) : Vec F S128x32 .f32 :=
  View.canon [⟨(Rect.unit (s := S128x32) ![0, 0] S128x32.size inb_S128x32_S128x32_0_0), k2_pay1 (k2_pay2 (View.ld x0 (Rect.unit (s := S128x128) ![0, 0] S128x128.size inb_S128x128_S128x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x32) ![0, 0] S64x32.size inb_S64x32_S64x32_0_0)) (View.ld x4 (Rect.unit (s := S1x32) ![0, 0] S1x32.size inb_S1x32_S1x32_0_0))) (k2_pay3 (View.ld x5 (Rect.unit (s := S1x32) ![0, 0] S1x32.size inb_S1x32_S1x32_0_0))) (View.ld x6 (Rect.unit (s := S1x32) ![0, 0] S1x32.size inb_S1x32_S1x32_0_0))⟩]

/-- The body leaves its inputs as they are and the output block at `out2_7` of them. -/
theorem sound_kernel2 (c : Dev nD) (E : Set ℕ) {i a0 h0 a1 h1 a2 h2 a3 h3 a4 h4 a5 h5 a6 h6 a7 h7 x0 x1 x2 x3 x4 x5 x6 d} {K : PUnit → sProp 𝕄} :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare d
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare (out2_7 x0 x1 x2 x3 x4 x5 x6)) -∗ K ⟨⟩))
      ⊢ wp frame (wpE (defs₀ (F := F)) Variants.none c none) E (cc2__simple_mlp_kernel i a0 h0 a1 h1 a2 h2 a3 h3 a4 h4 a5 h5 a6 h6 a7 h7) K := by
  simp only [cc2__simple_mlp_kernel_eq_skeleton]; unfold cc2__simple_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (View.cover_of_tiled _ S128x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Before the body, at every grid point, each input window holds its block of the array. -/
theorem before2 (c : Dev nD) (t : Fin cfg2.N) (w : Fin cfg2.W) (d) (h : w ≠ 7) : (dat2 V c).before w t d = (dat2 V c).after w t := by
  fin_cases w
  all_goals first | exact absurd rfl h | exact (dat2 V c).before_in_eq_fetched _ rfl (fun _ => rfl) (fun _ _ _ => rfl) (fun _ => rfl) t d

/-- The body's triple, at every grid point. -/
theorem body_obligation2 (c : Dev nD) : BodyObligation (dat2 (F := F) V c) (defs₀ (F := F)) Variants.none () Set.univ := fun t => by
  rw [bigSep_W2, bigSep_W2]
  rewrite [show (dat2 V c).owesAt () t.succ = (dat2 V c).owesAt () t.castSucc from rfl]
  simp (disch := decide) only [before2 V c t]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2 c Set.univ
  iframe
  iintro H
  iexact H

end Cert.Kernel.Frame

end
-- ==== Proof.BitsRun.lean ====
import proofs.«416324_j14577119003008_3_alg».proof.Proof.Gen.Kernel.Regions
import proofs.«416324_j14577119003008_3_alg».proof.Proof.BitsFrameEdge
import proofs.«416324_j14577119003008_3_alg».proof.Proof.BitsFrameNode
import proofs.«416324_j14577119003008_3_alg».proof.Proof.BitsFrameGlobal
import Idealize.ShloMosaic.Lib.Pipeline.RegionsLoop
import Idealize.ShloMosaic.Lib.Pipeline.FrameSuffix

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ (UR sig nD τ) ℕ

variable (m : (ℓ : Loc nD τ sig) → Buf (Elt F) ℓ)

abbrev VR7 : (c : Dev nD) → (b : Ref sig .tc) → Buf (Elt F) ((c : Thread nD τ).loc b) := fun c b => V7 m c b
def X8 (c : Dev nD) : Valuation τ sig (Elt F) :=
  Pipeline.withArrays spec0 c (V7 m c) fun w => (dat0 (VR7 m) c).arrAt w cfg0.N
theorem X8_arr (c : Dev nD) (w : Fin cfg0.W) :
    X8 m c (Proc.devRef .tc (Pipeline.arrRef spec0 w)) = (dat0 (VR7 m) c).arrAt w cfg0.N :=
  Pipeline.withArrays_arr spec0 launch0.win.arr_inj c _ _ w
def o1 : Outs (F := F) := fun _ r c => X8 m c r

abbrev VR11 : (c : Dev nD) → (b : Ref sig .tc) → Buf (Elt F) ((c : Thread nD τ).loc b) := fun c b => V11 m (o1 m) c b
def X12 (c : Dev nD) : Valuation τ sig (Elt F) :=
  Pipeline.withArrays spec1 c (V11 m (o1 m) c) fun w => (dat1 (VR11 m) c).arrAt w cfg1.N
theorem X12_arr (c : Dev nD) (w : Fin cfg1.W) :
    X12 m c (Proc.devRef .tc (Pipeline.arrRef spec1 w)) = (dat1 (VR11 m) c).arrAt w cfg1.N :=
  Pipeline.withArrays_arr spec1 launch1.win.arr_inj c _ _ w
def o2 : Outs (F := F) := fun J r c => if J ≤ 8 then X8 m c r else X12 m c r

abbrev VR13 : (c : Dev nD) → (b : Ref sig .tc) → Buf (Elt F) ((c : Thread nD τ).loc b) := fun c b => V13 m (o2 m) c b
def X14 (c : Dev nD) : Valuation τ sig (Elt F) :=
  Pipeline.withArrays spec2 c (V13 m (o2 m) c) fun w => (dat2 (VR13 m) c).arrAt w cfg2.N
theorem X14_arr (c : Dev nD) (w : Fin cfg2.W) :
    X14 m c (Proc.devRef .tc (Pipeline.arrRef spec2 w)) = (dat2 (VR13 m) c).arrAt w cfg2.N :=
  Pipeline.withArrays_arr spec2 launch2.win.arr_inj c _ _ w
def outs : Outs (F := F) := fun J r c => if J ≤ 8 then X8 m c r else if J ≤ 12 then X12 m c r else X14 m c r

def pdats : (p : Fin 3) → (c : Dev nD) → Dat τ (Elt F) Unit ℕ (UR sig nD τ) ℕ (cfgs p) c
  | ⟨0, _⟩ => dat0 (VR7 m)
  | ⟨1, _⟩ => dat1 (VR11 m)
  | ⟨2, _⟩ => dat2 (VR13 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem pdats_facts (p : Fin 3) (c : Dev nD) : (∀ t, (pdats m p c).Φ t = Pipeline.ΦA (cfgs p).spec c) ∧ (∀ t, (pdats m p c).owed t = 0)
    ∧ (∀ t, (pdats m p c).recorded t = Set.univ) ∧ ∀ w, (pdats m p c).q w = fullShare :=
  match p with
  | ⟨0, _⟩ | ⟨1, _⟩ | ⟨2, _⟩ => ⟨fun _ => rfl, fun _ => rfl, fun _ => rfl, fun _ => rfl⟩

set_option backward.isDefEq.respectTransparency.types false in
/-- The regions differ only in their output window `o`: one segment record serves all three. -/
def regOf (p : Fin 3) (lau : Pipeline.LaunchFacts (nD := nD) (τ := τ) cfgs p) (o : Fin (cfgs p).W) (V : Dev nD → Valuation τ sig (Elt F))
    (x : ∀ c : Dev nD, Buf (Elt F) ((c : Thread nD τ).loc (Pipeline.arrRef (cfgs p).spec o)))
    (hb : ∀ c, Pipeline.BodyObligation (pdats m p c) (defs₀ (F := F)) Variants.none () Set.univ)
    (hin : ∀ w, w ≠ o → ((cfgs p).win w).isOut = false)
    (hA : ∀ c w, (pdats m p c).A w = V c (Pipeline.arrRef (cfgs p).spec w))
    (hx : ∀ c, x c = (pdats m p c).arrAt o (cfgs p).N) :
    Pipeline.RegionSeg (pcfgs (F := F)) adm (pdats m) () defs₀ 𝒱₀ L lv p where
  win := lau.win.to₀
  block_pos := lau.block_pos
  stage_whole := lau.stage_whole
  K := PEmpty
  osem k := k.elim
  ho := Pipeline.OwnSemFacts.none _
  hbody c := (hb c).loose
  hwaits := Pipeline.hwaits_of_owed_zero _ _ _ _ L lv p fun c => (pdats_facts m p c).2.1
  pre c := iprop(StableHlo.held (c : Thread nD τ) (Pipeline.ucRefs τ sig) (V c) ∗ R c)
  post c := iprop(StableHlo.held (c : Thread nD τ) (Pipeline.ucRefs τ sig) (Function.update (V c) (Pipeline.arrRef (cfgs p).spec o) (x c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨-, h0, hr, hq⟩ := pdats_facts m p c
    have hsplit := Pipeline.arrays_of_unscopedBufs (p := p) (pcfgs (F := F)) adm (pdats m) lau.win lau.arr_whole c
      ((pdats m p c).share_full hq) (fun b => V c b) (hA c)
    rw [Pipeline.unscopedBufs_held] at hsplit
    rw [Pipeline.ownSems0_none]
    unfold Pipeline.Dat.owesAt Pipeline.owesWithin Pipeline.Dat.bound Pipeline.prefHeld
    rw [h0, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [(pdats_facts m p c).1]; unfold Pipeline.ΦA
    iintro ⟨Hp, -, Hr⟩
    isplitl [Hr]; · iexact Hr
    iexact Hp
  hout c := by
    rw [Pipeline.ownSems0_none, (pdats_facts m p c).1]; unfold Pipeline.ΦA
    iintro ⟨Hr, Hp⟩
    isplitl [Hp]; · iexact Hp
    isplitr; · iempintro
    iexact Hr
  hexit c := by
    obtain ⟨-, h0, -, hq⟩ := pdats_facts m p c
    have hjoin := Pipeline.unscopedBufs_of_arrays (p := p) (pcfgs (F := F)) adm (Ix := Unit) (Name := ℕ) (U := UR sig nD τ) (Lvl := ℕ)
      lau.win lau.arr_whole c (pdats m) ((pdats m p c).share_full hq) (fun b => V c b)
      (fun b => Function.update (V c) (Pipeline.arrRef (cfgs p).spec o) (x c) b) ((pdats m p c).arrAt · (cfgs p).N)
      (fun w => by
        show _ = Function.update (V c) (Pipeline.arrRef (cfgs p).spec o) (x c) (Pipeline.arrRef (cfgs p).spec w)
        by_cases h : w = o
        · subst h; rw [Function.update_self, hx]
        · rw [Function.update_of_ne fun e => h (lau.win.arr_inj (Proc.devRef_injective _ e)), (pdats m p c).arrAt_in w (hin w h), hA])
      fun b hb => Function.update_of_ne (fun e => hb (Finset.mem_image.mpr ⟨o, Finset.mem_univ _, (Proc.devRef_injective _ e).symm⟩)) ..
    rw [Pipeline.unscopedBufs_held] at hjoin
    unfold Pipeline.Dat.owesAt Pipeline.owesWithin
    rw [h0]
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf m 0 launch0 10 (V7 m) (fun c => outs m 8 main_v17 c) (body_obligation0 (VR7 m)) (by decide) (A_eq0 (VR7 m)) fun c => X8_arr m c 10
def reg1 := regOf m 1 launch1 9 (V11 m (outs m)) (fun c => outs m 12 main_v31 c) (body_obligation1 (VR11 m)) (by decide) (A_eq1 (VR11 m)) fun c => X12_arr m c 9
def reg2 := regOf m 2 launch2 7 (V13 m (outs m)) (fun c => outs m 14 main_v59 c) (body_obligation2 (VR13 m)) (by decide) (A_eq2 (VR13 m)) fun c => X14_arr m c 7

theorem R_owes (c : Dev nD) : R c ⊢ (iprop(∃ W, owes (c : Thread nD τ) (0 : CellTallies nD τ sig Unit) W) : sProp 𝕄) := by
  iintro ⟨-, H⟩; iexact H

variable (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by rw [main_chain c, Seg.run_eq_chain]; exact Entails.of_eq (by chain_rfl))
    (fun c => by simp only [segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (V0 m c) ∗ R c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m) c b)
    (hfin := fun c s' => by
      iintro ⟨Hh, HSI⟩
      unfold StableHlo.held
      imodintro
      iapply (pointsTo_read_all (Pipeline.ucRefs τ sig) (fun b => (((c : Thread nD τ)).1, b)) (V14 m (outs m) c) s')
      isplitl [Hh] <;> iassumption)
    (hQ := fun _ h => h)

theorem run_values : θ_run defs (onTc (τ := τ) (main (F := F))) ⟨m, fun _ => 0, ρ⟩ (fun r => ∀ c : Dev nD,
      r.2.mem ((c.tc : Thread nD τ).loc main_v31) = (dat1 (VR11 m) c).arrAt 9 cfg1.N
      ∧ r.2.mem ((c.tc : Thread nD τ).loc main_v17) = (dat0 (VR7 m) c).arrAt 10 cfg0.N
      ∧ r.2.mem ((c.tc : Thread nD τ).loc main_v59) = (dat2 (VR13 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    have a {b : Ref sig .tc} {y} (hb : ¬ (Proc.devRef .tc b : DevRef τ sig).isScoped) (e : V14 m (outs m) c b = y) :
        r.2.mem ((c.tc : Thread nD τ).loc b) = y := (h c _ (Finset.mem_filter.mpr ⟨StableHlo.devRef_mem_tcRefs b, hb⟩)).trans e
    ⟨a (by decide) (((V14_of _ _ _ _ (by decide)).trans (V13_of _ _ _ _ (by decide))).trans ((Function.update_self ..).trans (X12_arr m c 9))),
     a (by decide) ((V14_of _ _ _ _ (by decide)).trans <| (V13_of _ _ _ _ (by decide)).trans <| (V12_of _ _ _ _ (by decide)).trans <|
       (V11_of _ _ _ _ (by decide)).trans <| (V10_of _ _ _ _ (by decide)).trans <| (V9_of _ _ _ _ (by decide)).trans <|
       (Function.update_self ..).trans (X8_arr m c 10)),
     a (by decide) ((Function.update_self ..).trans (X14_arr m c 7)),
     a (by decide) (V14_main_arg0 ..),
     a (by decide) (V14_main_arg1 ..),
     a (by decide) (V14_main_arg2 ..),
     a (by decide) (V14_main_arg3 ..),
     a (by decide) (V14_main_arg4 ..),
     a (by decide) (V14_main_arg5 ..),
     a (by decide) (V14_main_arg6 ..),
     a (by decide) (V14_main_arg7 ..),
     a (by decide) (V14_main_arg8 ..),
     a (by decide) (V14_main_arg9 ..),
     a (by decide) (V14_main_arg10 ..),
     a (by decide) (V14_main_arg11 ..),
     a (by decide) (V14_main_arg12 ..),
     a (by decide) (V14_main_arg13 ..),
     a (by decide) (V14_main_arg14 ..),
     a (by decide) (V14_main_arg15 ..),
     a (by decide) (V14_main_arg16 ..),
     a (by decide) (V14_main_arg17 ..),
     a (by decide) (V14_main_arg18 ..),
     a (by decide) (V14_main_arg19 ..),
     a (by decide) (V14_main_arg20 ..),
     a (by decide) (V14_main_arg21 ..),
     a (by decide) (V14_main_arg22 ..),
     a (by decide) (V14_main_arg23 ..)⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => (h c).2.2.2) (run_values m ρ)

end Cert.Kernel.Frame

end
-- ==== Proof.FrameEdge.lean ====
import proofs.«416324_j14577119003008_3_alg».proof.Proof.Gen.KernelIdeal.Launch
import proofs.«416324_j14577119003008_3_alg».proof.Proof.Gen.KernelIdeal.Skeleton
import proofs.«416324_j14577119003008_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_10 (x0 : Vec F S8000x48 .bf16) (x1 : Vec F S8000x48 .bf16) (x2 : Vec F S8000x48 .bf16) (x3 : Vec F S8000x32 .bf16) (x4 : Vec F S176x64 .bf16) (x5 : Vec F S1x64 .f32) (x6 : Vec F S64x48 .bf16) (x7 : Vec F S1x48 .f32) (x8 : Vec F S1x48 .f32) (x9 : Vec F S1x48 .f32) : Vec F S8000x48 .f32 :=
  View.canon [⟨Rect.unit (s := S8000x48) ![0, 0] S8000x48.size inb_S8000x48_S8000x48_0_0, k0_pay1 (k0_pay2 (View.ld x0 (Rect.unit (s := S8000x48) ![0, 0] S8000x48.size inb_S8000x48_S8000x48_0_0)) (View.ld x1 (Rect.unit (s := S8000x48) ![0, 0] S8000x48.size inb_S8000x48_S8000x48_0_0)) (View.ld x2 (Rect.unit (s := S8000x48) ![0, 0] S8000x48.size inb_S8000x48_S8000x48_0_0)) (View.ld x3 (Rect.unit (s := S8000x32) ![0, 0] S8000x32.size inb_S8000x32_S8000x32_0_0)) (View.ld x4 (Rect.unit (s := S176x64) ![0, 0] S176x64.size inb_S176x64_S176x64_0_0)) (View.ld x5 (Rect.unit (s := S1x64) ![0, 0] S1x64.size inb_S1x64_S1x64_0_0)) (View.ld x6 (Rect.unit (s := S64x48) ![0, 0] S64x48.size inb_S64x48_S64x48_0_0)) (View.ld x7 (Rect.unit (s := S1x48) ![0, 0] S1x48.size inb_S1x48_S1x48_0_0))) (k0_pay3 (View.ld x0 (Rect.unit (s := S8000x48) ![0, 0] S8000x48.size inb_S8000x48_S8000x48_0_0)) (View.ld x1 (Rect.unit (s := S8000x48) ![0, 0] S8000x48.size inb_S8000x48_S8000x48_0_0)) (View.ld x2 (Rect.unit (s := S8000x48) ![0, 0] S8000x48.size inb_S8000x48_S8000x48_0_0)) (View.ld x3 (Rect.unit (s := S8000x32) ![0, 0] S8000x32.size inb_S8000x32_S8000x32_0_0)) (View.ld x4 (Rect.unit (s := S176x64) ![0, 0] S176x64.size inb_S176x64_S176x64_0_0)) (View.ld x5 (Rect.unit (s := S1x64) ![0, 0] S1x64.size inb_S1x64_S1x64_0_0)) (View.ld x6 (Rect.unit (s := S64x48) ![0, 0] S64x48.size inb_S64x48_S64x48_0_0)) (View.ld x7 (Rect.unit (s := S1x48) ![0, 0] S1x48.size inb_S1x48_S1x48_0_0))) (k0_pay4 (View.ld x0 (Rect.unit (s := S8000x48) ![0, 0] S8000x48.size inb_S8000x48_S8000x48_0_0)) (View.ld x1 (Rect.unit (s := S8000x48) ![0, 0] S8000x48.size inb_S8000x48_S8000x48_0_0)) (View.ld x2 (Rect.unit (s := S8000x48) ![0, 0] S8000x48.size inb_S8000x48_S8000x48_0_0)) (View.ld x3 (Rect.unit (s := S8000x32) ![0, 0] S8000x32.size inb_S8000x32_S8000x32_0_0)) (View.ld x4 (Rect.unit (s := S176x64) ![0, 0] S176x64.size inb_S176x64_S176x64_0_0)) (View.ld x5 (Rect.unit (s := S1x64) ![0, 0] S1x64.size inb_S1x64_S1x64_0_0)) (View.ld x6 (Rect.unit (s := S64x48) ![0, 0] S64x48.size inb_S64x48_S64x48_0_0)) (View.ld x7 (Rect.unit (s := S1x48) ![0, 0] S1x48.size inb_S1x48_S1x48_0_0))) (View.ld x8 (Rect.unit (s := S1x48) ![0, 0] S1x48.size inb_S1x48_S1x48_0_0)) (View.ld x9 (Rect.unit (s := S1x48) ![0, 0] S1x48.size inb_S1x48_S1x48_0_0))⟩]

/-- The body leaves its inputs as they are and the output block at `out0_10` of them. -/
theorem sound_kernel0 (c : Dev nD) (E : Set ℕ) {i a0 h0 a1 h1 a2 h2 a3 h3 a4 h4 a5 h5 a6 h6 a7 h7 a8 h8 a9 h9 a10 h10 x0 x1 x2 x3 x4 x5 x6 x7 x8 x9 d} {K : PUnit → sProp 𝕄} :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare d
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare x9 ∗ owns c.tc a10 fullShare (out0_10 x0 x1 x2 x3 x4 x5 x6 x7 x8 x9)) -∗ K ⟨⟩))
      ⊢ wp frame (wpE (defs₀ (F := F)) Variants.none c none) E (cc0__edge_mlp_kernel i a0 h0 a1 h1 a2 h2 a3 h3 a4 h4 a5 h5 a6 h6 a7 h7 a8 h8 a9 h9 a10 h10) K := by
  simp only [cc0__edge_mlp_kernel_eq_skeleton]; unfold cc0__edge_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (View.cover_of_tiled _ S8000x48.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

/-- Before the body, at every grid point, each input window holds its block of the array. -/
theorem before0 (c : Dev nD) (t : Fin cfg0.N) (w : Fin cfg0.W) (d) (h : w ≠ 10) : (dat0 V c).before w t d = (dat0 V c).after w t := by
  fin_cases w
  all_goals first | exact absurd rfl h | exact (dat0 V c).before_in_eq_fetched _ rfl (fun _ => rfl) (fun _ _ _ => rfl) (fun _ => rfl) t d

/-- The body's triple, at every grid point. -/
theorem body_obligation0 (c : Dev nD) : BodyObligation (dat0 (F := F) V c) (defs₀ (F := F)) Variants.none () Set.univ := fun t => by
  rw [bigSep_W0, bigSep_W0]
  rewrite [show (dat0 V c).owesAt () t.succ = (dat0 V c).owesAt () t.castSucc from rfl]
  simp (disch := decide) only [before0 V c t]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel0 c Set.univ
  iframe
  iintro H
  iexact H

end Cert.KernelIdeal.Frame
-- ==== Proof.FrameNode.lean ====
import proofs.«416324_j14577119003008_3_alg».proof.Proof.Gen.KernelIdeal.Launch
import proofs.«416324_j14577119003008_3_alg».proof.Proof.Gen.KernelIdeal.Skeleton
import proofs.«416324_j14577119003008_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_9 (x0 : Vec F S10000x48 .bf16) (x1 : Vec F S10000x48 .bf16) (x2 : Vec F S10000x32 .bf16) (x3 : Vec F S128x64 .bf16) (x4 : Vec F S1x64 .f32) (x5 : Vec F S64x48 .bf16) (x6 : Vec F S1x48 .f32) (x7 : Vec F S1x48 .f32) (x8 : Vec F S1x48 .f32) : Vec F S10000x48 .f32 :=
  View.canon [⟨Rect.unit (s := S10000x48) ![0, 0] S10000x48.size inb_S10000x48_S10000x48_0_0,
    k1_pay1 (k1_pay2 (View.ld x0 (Rect.unit (s := S10000x48) ![0, 0] S10000x48.size inb_S10000x48_S10000x48_0_0)) (View.ld x1 (Rect.unit (s := S10000x48) ![0, 0] S10000x48.size inb_S10000x48_S10000x48_0_0)) (View.ld x2 (Rect.unit (s := S10000x32) ![0, 0] S10000x32.size inb_S10000x32_S10000x32_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x48) ![0, 0] S64x48.size inb_S64x48_S64x48_0_0)) (View.ld x6 (Rect.unit (s := S1x48) ![0, 0] S1x48.size inb_S1x48_S1x48_0_0)))
      (k1_pay3 (View.ld x0 (Rect.unit (s := S10000x48) ![0, 0] S10000x48.size inb_S10000x48_S10000x48_0_0)) (View.ld x1 (Rect.unit (s := S10000x48) ![0, 0] S10000x48.size inb_S10000x48_S10000x48_0_0)) (View.ld x2 (Rect.unit (s := S10000x32) ![0, 0] S10000x32.size inb_S10000x32_S10000x32_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x48) ![0, 0] S64x48.size inb_S64x48_S64x48_0_0)) (View.ld x6 (Rect.unit (s := S1x48) ![0, 0] S1x48.size inb_S1x48_S1x48_0_0)))
      (k1_pay4 (View.ld x0 (Rect.unit (s := S10000x48) ![0, 0] S10000x48.size inb_S10000x48_S10000x48_0_0)) (View.ld x1 (Rect.unit (s := S10000x48) ![0, 0] S10000x48.size inb_S10000x48_S10000x48_0_0)) (View.ld x2 (Rect.unit (s := S10000x32) ![0, 0] S10000x32.size inb_S10000x32_S10000x32_0_0)) (View.ld x3 (Rect.unit (s := S128x64) ![0, 0] S128x64.size inb_S128x64_S128x64_0_0)) (View.ld x4 (Rect.unit (s := S1x64) ![0, 0] S1x64.size inb_S1x64_S1x64_0_0)) (View.ld x5 (Rect.unit (s := S64x48) ![0, 0] S64x48.size inb_S64x48_S64x48_0_0)) (View.ld x6 (Rect.unit (s := S1x48) ![0, 0] S1x48.size inb_S1x48_S1x48_0_0)))
      (View.ld x7 (Rect.unit (s := S1x48) ![0, 0] S1x48.size inb_S1x48_S1x48_0_0)) (View.ld x8 (Rect.unit (s := S1x48) ![0, 0] S1x48.size inb_S1x48_S1x48_0_0))⟩]

/-- The body leaves its inputs as they are and the output block at `out1_9` of them. -/
theorem sound_kernel1 (c : Dev nD) (E : Set ℕ) {i a0 h0 a1 h1 a2 h2 a3 h3 a4 h4 a5 h5 a6 h6 a7 h7 a8 h8 a9 h9 x0 x1 x2 x3 x4 x5 x6 x7 x8 d} {K : PUnit → sProp 𝕄} :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare d
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare x7 ∗ owns c.tc a8 fullShare x8 ∗ owns c.tc a9 fullShare (out1_9 x0 x1 x2 x3 x4 x5 x6 x7 x8)) -∗ K ⟨⟩))
      ⊢ wp frame (wpE (defs₀ (F := F)) Variants.none c none) E (cc1__node_mlp_kernel i a0 h0 a1 h1 a2 h2 a3 h3 a4 h4 a5 h5 a6 h6 a7 h7 a8 h8 a9 h9) K := by
  simp only [cc1__node_mlp_kernel_eq_skeleton]; unfold cc1__node_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (View.cover_of_tiled _ S10000x48.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Before the body, at every grid point, each input window holds its block of the array. -/
theorem before1 (c : Dev nD) (t : Fin cfg1.N) (w : Fin cfg1.W) (d) (h : w ≠ 9) : (dat1 V c).before w t d = (dat1 V c).after w t := by
  fin_cases w
  all_goals first | exact absurd rfl h | exact (dat1 V c).before_in_eq_fetched _ rfl (fun _ => rfl) (fun _ _ _ => rfl) (fun _ => rfl) t d

/-- The body's triple, at every grid point. -/
theorem body_obligation1 (c : Dev nD) : BodyObligation (dat1 (F := F) V c) (defs₀ (F := F)) Variants.none () Set.univ := fun t => by
  rw [bigSep_W1, bigSep_W1]
  rewrite [show (dat1 V c).owesAt () t.succ = (dat1 V c).owesAt () t.castSucc from rfl]
  simp (disch := decide) only [before1 V c t]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply sound_kernel1 c Set.univ
  iframe
  iintro H
  iexact H

end Cert.KernelIdeal.Frame

end
-- ==== Proof.FrameGlobal.lean ====
import proofs.«416324_j14577119003008_3_alg».proof.Proof.Gen.KernelIdeal.Launch
import proofs.«416324_j14577119003008_3_alg».proof.Proof.Gen.KernelIdeal.Skeleton
import proofs.«416324_j14577119003008_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_7 (x0 : Vec F S128x128 .f32) (x1 : Vec F S128x64 .f32) (x2 : Vec F S1x64 .f32) (x3 : Vec F S64x32 .f32) (x4 : Vec F S1x32 .f32) (x5 : Vec F S1x32 .f32) (x6 : Vec F S1x32 .f32) : Vec F S128x32 .f32 :=
  View.canon [⟨(Rect.unit (s := S128x32) ![0, 0] S128x32.size inb_S128x32_S128x32_0_0), k2_pay1 (k2_pay2 (View.ld x0 (Rect.unit (s := S128x128) ![0, 0] S128x128.size inb_S128x128_S128x128_0_0)) (View.ld x1 (Rect.unit (s := S128x64) ![0, 0] S128x64.size inb_S128x64_S128x64_0_0)) (View.ld x2 (Rect.unit (s := S1x64) ![0, 0] S1x64.size inb_S1x64_S1x64_0_0)) (View.ld x3 (Rect.unit (s := S64x32) ![0, 0] S64x32.size inb_S64x32_S64x32_0_0)) (View.ld x4 (Rect.unit (s := S1x32) ![0, 0] S1x32.size inb_S1x32_S1x32_0_0))) (k2_pay3 (View.ld x5 (Rect.unit (s := S1x32) ![0, 0] S1x32.size inb_S1x32_S1x32_0_0))) (View.ld x6 (Rect.unit (s := S1x32) ![0, 0] S1x32.size inb_S1x32_S1x32_0_0))⟩]

/-- The body leaves its inputs as they are and the output block at `out2_7` of them. -/
theorem sound_kernel2 (c : Dev nD) (E : Set ℕ) {i a0 h0 a1 h1 a2 h2 a3 h3 a4 h4 a5 h5 a6 h6 a7 h7 x0 x1 x2 x3 x4 x5 x6 d} {K : PUnit → sProp 𝕄} :
    iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare d
        ∗ (iprop(owns c.tc a0 fullShare x0 ∗ owns c.tc a1 fullShare x1 ∗ owns c.tc a2 fullShare x2 ∗ owns c.tc a3 fullShare x3 ∗ owns c.tc a4 fullShare x4 ∗ owns c.tc a5 fullShare x5 ∗ owns c.tc a6 fullShare x6 ∗ owns c.tc a7 fullShare (out2_7 x0 x1 x2 x3 x4 x5 x6)) -∗ K ⟨⟩))
      ⊢ wp frame (wpE (defs₀ (F := F)) Variants.none c none) E (cc2__simple_mlp_kernel i a0 h0 a1 h1 a2 h2 a3 h3 a4 h4 a5 h5 a6 h6 a7 h7) K := by
  simp only [cc2__simple_mlp_kernel_eq_skeleton]; unfold cc2__simple_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (View.cover_of_tiled _ S128x32.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Before the body, at every grid point, each input window holds its block of the array. -/
theorem before2 (c : Dev nD) (t : Fin cfg2.N) (w : Fin cfg2.W) (d) (h : w ≠ 7) : (dat2 V c).before w t d = (dat2 V c).after w t := by
  fin_cases w
  all_goals first | exact absurd rfl h | exact (dat2 V c).before_in_eq_fetched _ rfl (fun _ => rfl) (fun _ _ _ => rfl) (fun _ => rfl) t d

/-- The body's triple, at every grid point. -/
theorem body_obligation2 (c : Dev nD) : BodyObligation (dat2 (F := F) V c) (defs₀ (F := F)) Variants.none () Set.univ := fun t => by
  rw [bigSep_W2, bigSep_W2]
  rewrite [show (dat2 V c).owesAt () t.succ = (dat2 V c).owesAt () t.castSucc from rfl]
  simp (disch := decide) only [before2 V c t]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2 c Set.univ
  iframe
  iintro H
  iexact H

end Cert.KernelIdeal.Frame

end
-- ==== Proof.Run.lean ====
import proofs.«416324_j14577119003008_3_alg».proof.Proof.Gen.KernelIdeal.Regions
import proofs.«416324_j14577119003008_3_alg».proof.Proof.FrameEdge
import proofs.«416324_j14577119003008_3_alg».proof.Proof.FrameNode
import proofs.«416324_j14577119003008_3_alg».proof.Proof.FrameGlobal
import Idealize.ShloMosaic.Lib.Pipeline.RegionsLoop
import Idealize.ShloMosaic.Lib.Pipeline.FrameSuffix

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ (UR sig nD τ) ℕ

variable (m : (ℓ : Loc nD τ sig) → Buf (Elt F) ℓ)

abbrev VR7 : (c : Dev nD) → (b : Ref sig .tc) → Buf (Elt F) ((c : Thread nD τ).loc b) := fun c b => V7 m c b
def X8 (c : Dev nD) : Valuation τ sig (Elt F) :=
  Pipeline.withArrays spec0 c (V7 m c) fun w => (dat0 (VR7 m) c).arrAt w cfg0.N
theorem X8_arr (c : Dev nD) (w : Fin cfg0.W) :
    X8 m c (Proc.devRef .tc (Pipeline.arrRef spec0 w)) = (dat0 (VR7 m) c).arrAt w cfg0.N :=
  Pipeline.withArrays_arr spec0 launch0.win.arr_inj c _ _ w
def o1 : Outs (F := F) := fun _ r c => X8 m c r

abbrev VR11 : (c : Dev nD) → (b : Ref sig .tc) → Buf (Elt F) ((c : Thread nD τ).loc b) := fun c b => V11 m (o1 m) c b
def X12 (c : Dev nD) : Valuation τ sig (Elt F) :=
  Pipeline.withArrays spec1 c (V11 m (o1 m) c) fun w => (dat1 (VR11 m) c).arrAt w cfg1.N
theorem X12_arr (c : Dev nD) (w : Fin cfg1.W) :
    X12 m c (Proc.devRef .tc (Pipeline.arrRef spec1 w)) = (dat1 (VR11 m) c).arrAt w cfg1.N :=
  Pipeline.withArrays_arr spec1 launch1.win.arr_inj c _ _ w
def o2 : Outs (F := F) := fun J r c => if J ≤ 8 then X8 m c r else X12 m c r

abbrev VR13 : (c : Dev nD) → (b : Ref sig .tc) → Buf (Elt F) ((c : Thread nD τ).loc b) := fun c b => V13 m (o2 m) c b
def X14 (c : Dev nD) : Valuation τ sig (Elt F) :=
  Pipeline.withArrays spec2 c (V13 m (o2 m) c) fun w => (dat2 (VR13 m) c).arrAt w cfg2.N
theorem X14_arr (c : Dev nD) (w : Fin cfg2.W) :
    X14 m c (Proc.devRef .tc (Pipeline.arrRef spec2 w)) = (dat2 (VR13 m) c).arrAt w cfg2.N :=
  Pipeline.withArrays_arr spec2 launch2.win.arr_inj c _ _ w
def outs : Outs (F := F) := fun J r c => if J ≤ 8 then X8 m c r else if J ≤ 12 then X12 m c r else X14 m c r

def pdats : (p : Fin 3) → (c : Dev nD) → Dat τ (Elt F) Unit ℕ (UR sig nD τ) ℕ (cfgs p) c
  | ⟨0, _⟩ => dat0 (VR7 m)
  | ⟨1, _⟩ => dat1 (VR11 m)
  | ⟨2, _⟩ => dat2 (VR13 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem pdats_facts (p : Fin 3) (c : Dev nD) : (∀ t, (pdats m p c).Φ t = Pipeline.ΦA (cfgs p).spec c) ∧ (∀ t, (pdats m p c).owed t = 0)
    ∧ (∀ t, (pdats m p c).recorded t = Set.univ) ∧ ∀ w, (pdats m p c).q w = fullShare :=
  match p with
  | ⟨0, _⟩ | ⟨1, _⟩ | ⟨2, _⟩ => ⟨fun _ => rfl, fun _ => rfl, fun _ => rfl, fun _ => rfl⟩

set_option backward.isDefEq.respectTransparency.types false in
/-- The regions differ only in their output window `o`: one segment record serves all three. -/
def regOf (p : Fin 3) (lau : Pipeline.LaunchFacts (nD := nD) (τ := τ) cfgs p) (o : Fin (cfgs p).W) (V : Dev nD → Valuation τ sig (Elt F))
    (x : ∀ c : Dev nD, Buf (Elt F) ((c : Thread nD τ).loc (Pipeline.arrRef (cfgs p).spec o)))
    (hb : ∀ c, Pipeline.BodyObligation (pdats m p c) (defs₀ (F := F)) Variants.none () Set.univ)
    (hin : ∀ w, w ≠ o → ((cfgs p).win w).isOut = false)
    (hA : ∀ c w, (pdats m p c).A w = V c (Pipeline.arrRef (cfgs p).spec w))
    (hx : ∀ c, x c = (pdats m p c).arrAt o (cfgs p).N) :
    Pipeline.RegionSeg (pcfgs (F := F)) adm (pdats m) () defs₀ 𝒱₀ L lv p where
  win := lau.win.to₀
  block_pos := lau.block_pos
  stage_whole := lau.stage_whole
  K := PEmpty
  osem k := k.elim
  ho := Pipeline.OwnSemFacts.none _
  hbody c := (hb c).loose
  hwaits := Pipeline.hwaits_of_owed_zero _ _ _ _ L lv p fun c => (pdats_facts m p c).2.1
  pre c := iprop(StableHlo.held (c : Thread nD τ) (Pipeline.ucRefs τ sig) (V c) ∗ R c)
  post c := iprop(StableHlo.held (c : Thread nD τ) (Pipeline.ucRefs τ sig) (Function.update (V c) (Pipeline.arrRef (cfgs p).spec o) (x c)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    obtain ⟨-, h0, hr, hq⟩ := pdats_facts m p c
    have hsplit := Pipeline.arrays_of_unscopedBufs (p := p) (pcfgs (F := F)) adm (pdats m) lau.win lau.arr_whole c
      ((pdats m p c).share_full hq) (fun b => V c b) (hA c)
    rw [Pipeline.unscopedBufs_held] at hsplit
    rw [Pipeline.ownSems0_none]
    unfold Pipeline.Dat.owesAt Pipeline.owesWithin Pipeline.Dat.bound Pipeline.prefHeld
    rw [h0, hr, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [(pdats_facts m p c).1]; unfold Pipeline.ΦA
    iintro ⟨Hp, -, Hr⟩
    isplitl [Hr]; · iexact Hr
    iexact Hp
  hout c := by
    rw [Pipeline.ownSems0_none, (pdats_facts m p c).1]; unfold Pipeline.ΦA
    iintro ⟨Hr, Hp⟩
    isplitl [Hp]; · iexact Hp
    isplitr; · iempintro
    iexact Hr
  hexit c := by
    obtain ⟨-, h0, -, hq⟩ := pdats_facts m p c
    have hjoin := Pipeline.unscopedBufs_of_arrays (p := p) (pcfgs (F := F)) adm (Ix := Unit) (Name := ℕ) (U := UR sig nD τ) (Lvl := ℕ)
      lau.win lau.arr_whole c (pdats m) ((pdats m p c).share_full hq) (fun b => V c b)
      (fun b => Function.update (V c) (Pipeline.arrRef (cfgs p).spec o) (x c) b) ((pdats m p c).arrAt · (cfgs p).N)
      (fun w => by
        show _ = Function.update (V c) (Pipeline.arrRef (cfgs p).spec o) (x c) (Pipeline.arrRef (cfgs p).spec w)
        by_cases h : w = o
        · subst h; rw [Function.update_self, hx]
        · rw [Function.update_of_ne fun e => h (lau.win.arr_inj (Proc.devRef_injective _ e)), (pdats m p c).arrAt_in w (hin w h), hA])
      fun b hb => Function.update_of_ne (fun e => hb (Finset.mem_image.mpr ⟨o, Finset.mem_univ _, (Proc.devRef_injective _ e).symm⟩)) ..
    rw [Pipeline.unscopedBufs_held] at hjoin
    unfold Pipeline.Dat.owesAt Pipeline.owesWithin
    rw [h0]
    iintro ⟨Ha, ⟨%W, -, HO⟩, HY, Hrest⟩
    imodintro
    isplitl [Ha Hrest]
    · iapply hjoin; isplitl [Ha] <;> iassumption
    isplitl [HY]; · iexact HY
    iexists W; iexact HO

def reg0 := regOf m 0 launch0 10 (V7 m) (fun c => outs m 8 main_v17 c) (body_obligation0 (VR7 m)) (by decide) (A_eq0 (VR7 m)) fun c => X8_arr m c 10
def reg1 := regOf m 1 launch1 9 (V11 m (outs m)) (fun c => outs m 12 main_v31 c) (body_obligation1 (VR11 m)) (by decide) (A_eq1 (VR11 m)) fun c => X12_arr m c 9
def reg2 := regOf m 2 launch2 7 (V13 m (outs m)) (fun c => outs m 14 main_v59 c) (body_obligation2 (VR13 m)) (by decide) (A_eq2 (VR13 m)) fun c => X14_arr m c 7

theorem R_owes (c : Dev nD) : R c ⊢ (iprop(∃ W, owes (c : Thread nD τ) (0 : CellTallies nD τ sig Unit) W) : sProp 𝕄) := by
  iintro ⟨-, H⟩; iexact H

variable (ρ : Dev nD → PrngReg)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = V14 m (outs m) c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m))
    (fun c Q => by rw [main_chain c, Seg.run_eq_chain]; exact Entails.of_eq (by chain_rfl))
    (fun c => by simp only [segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (V0 m c) ∗ R c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl, .rfl, sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V14 m (outs m) c b)
    (hfin := fun c s' => by
      iintro ⟨Hh, HSI⟩
      unfold StableHlo.held
      imodintro
      iapply (pointsTo_read_all (Pipeline.ucRefs τ sig) (fun b => (((c : Thread nD τ)).1, b)) (V14 m (outs m) c) s')
      isplitl [Hh] <;> iassumption)
    (hQ := fun _ h => h)

theorem run_values : θ_run defs (onTc (τ := τ) (main (F := F))) ⟨m, fun _ => 0, ρ⟩ (fun r => ∀ c : Dev nD,
      r.2.mem ((c.tc : Thread nD τ).loc main_v31) = (dat1 (VR11 m) c).arrAt 9 cfg1.N
      ∧ r.2.mem ((c.tc : Thread nD τ).loc main_v17) = (dat0 (VR7 m) c).arrAt 10 cfg0.N
      ∧ r.2.mem ((c.tc : Thread nD τ).loc main_v59) = (dat2 (VR13 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
    have a {b : Ref sig .tc} {y} (hb : ¬ (Proc.devRef .tc b : DevRef τ sig).isScoped) (e : V14 m (outs m) c b = y) :
        r.2.mem ((c.tc : Thread nD τ).loc b) = y := (h c _ (Finset.mem_filter.mpr ⟨StableHlo.devRef_mem_tcRefs b, hb⟩)).trans e
    ⟨a (by decide) (((V14_of _ _ _ _ (by decide)).trans (V13_of _ _ _ _ (by decide))).trans ((Function.update_self ..).trans (X12_arr m c 9))),
     a (by decide) ((V14_of _ _ _ _ (by decide)).trans <| (V13_of _ _ _ _ (by decide)).trans <| (V12_of _ _ _ _ (by decide)).trans <|
       (V11_of _ _ _ _ (by decide)).trans <| (V10_of _ _ _ _ (by decide)).trans <| (V9_of _ _ _ _ (by decide)).trans <|
       (Function.update_self ..).trans (X8_arr m c 10)),
     a (by decide) ((Function.update_self ..).trans (X14_arr m c 7)),
     a (by decide) (V14_main_arg0 ..),
     a (by decide) (V14_main_arg1 ..),
     a (by decide) (V14_main_arg2 ..),
     a (by decide) (V14_main_arg3 ..),
     a (by decide) (V14_main_arg4 ..),
     a (by decide) (V14_main_arg5 ..),
     a (by decide) (V14_main_arg6 ..),
     a (by decide) (V14_main_arg7 ..),
     a (by decide) (V14_main_arg8 ..),
     a (by decide) (V14_main_arg9 ..),
     a (by decide) (V14_main_arg10 ..),
     a (by decide) (V14_main_arg11 ..),
     a (by decide) (V14_main_arg12 ..),
     a (by decide) (V14_main_arg13 ..),
     a (by decide) (V14_main_arg14 ..),
     a (by decide) (V14_main_arg15 ..),
     a (by decide) (V14_main_arg16 ..),
     a (by decide) (V14_main_arg17 ..),
     a (by decide) (V14_main_arg18 ..),
     a (by decide) (V14_main_arg19 ..),
     a (by decide) (V14_main_arg20 ..),
     a (by decide) (V14_main_arg21 ..),
     a (by decide) (V14_main_arg22 ..),
     a (by decide) (V14_main_arg23 ..)⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => (h c).2.2.2) (run_values m ρ)

end Cert.KernelIdeal.Frame

end
-- ==== Proof.RefRead.lean ====
import proofs.«416324_j14577119003008_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
/-! The reference program read as functions: `val_main_vN` is what host operation `N` leaves in its buffer, as a function of the
    argument arrays `x0 … x23` it depends on (each definition takes, in order, exactly the arguments it mentions). -/
variable (x0 : FVec F S50000x48 .f32) (x1 : FVec F S800000x48 .f32) (x2 : FVec F S128x32 .f32) (x3 : IVec S2x800000 32) (x4 : IVec S50000 32) (x5 : IVec S800000 32) (x6 : FVec F S176x64 .f32) (x7 : FVec F S64 .f32) (x8 : FVec F S64x48 .f32) (x9 x10 x11 : FVec F S48 .f32) (x12 : FVec F S128x64 .f32) (x13 : FVec F S64 .f32) (x14 : FVec F S64x48 .f32) (x15 x16 x17 : FVec F S48 .f32) (x18 : FVec F S128x64 .f32) (x19 : FVec F S64 .f32) (x20 : FVec F S64x32 .f32) (x21 x22 x23 : FVec F S32 .f32)

def val_main_v0 : (⟨S1x800000, .i32⟩ : BufTy).Contents (Elt F) :=
  extractStridedSlice S1x800000 ![0, 0] (x3) slices_S2x800000_S1x800000_0_0

def val_main_v1 : (⟨S800000, .i32⟩ : BufTy).Contents (Elt F) :=
  shapeCast _ (val_main_v0 (F := F) x3) shapeCasts_S1x800000_S800000

def val_main_v2 : (⟨S1x800000, .i32⟩ : BufTy).Contents (Elt F) :=
  extractStridedSlice S1x800000 ![1, 0] (x3) slices_S2x800000_S1x800000_1_0

def val_main_v3 : (⟨S800000, .i32⟩ : BufTy).Contents (Elt F) :=
  shapeCast _ (val_main_v2 (F := F) x3) shapeCasts_S1x800000_S800000

def val_main_c : (⟨S_, .i32⟩ : BufTy).Contents (Elt F) :=
  constantI S_ 32 0#32

def val_main_v4 : (⟨S800000, .i32⟩ : BufTy).Contents (Elt F) :=
  broadcastInDim S800000 ![] bcast_S_S800000 (val_main_c (F := F))

def val_main_v5 : (⟨S800000, .i1⟩ : BufTy).Contents (Elt F) :=
  cmpi .slt (val_main_v1 (F := F) x3) (val_main_v4 (F := F))

def val_main_c_0 : (⟨S_, .i32⟩ : BufTy).Contents (Elt F) :=
  constantI S_ 32 50000#32

def val_main_v6 : (⟨S800000, .i32⟩ : BufTy).Contents (Elt F) :=
  broadcastInDim S800000 ![] bcast_S_S800000 (val_main_c_0 (F := F))

def val_main_v7 : (⟨S800000, .i32⟩ : BufTy).Contents (Elt F) :=
  addi (val_main_v1 (F := F) x3) (val_main_v6 (F := F))

def val_main_v8 : (⟨S800000, .i32⟩ : BufTy).Contents (Elt F) :=
  select (val_main_v5 (F := F) x3) (val_main_v7 (F := F) x3) (val_main_v1 (F := F) x3)

def val_main_v9 : (⟨S800000x1, .i32⟩ : BufTy).Contents (Elt F) :=
  broadcastInDim S800000x1 ![0] bcast_S800000_S800000x1_0 (val_main_v8 (F := F) x3)

def val_main_v10 : FVec F S800000x48 .f32 :=
  Host.gather gather_S50000x48_S800000x1_S800000x48_1_0_n_n_0_1_148 (x0) (val_main_v9 (F := F) x3)

def val_main_c_1 : (⟨S_, .i32⟩ : BufTy).Contents (Elt F) :=
  constantI S_ 32 0#32

def val_main_v11 : (⟨S800000, .i32⟩ : BufTy).Contents (Elt F) :=
  broadcastInDim S800000 ![] bcast_S_S800000 (val_main_c_1 (F := F))

def val_main_v12 : (⟨S800000, .i1⟩ : BufTy).Contents (Elt F) :=
  cmpi .slt (val_main_v3 (F := F) x3) (val_main_v11 (F := F))

def val_main_c_2 : (⟨S_, .i32⟩ : BufTy).Contents (Elt F) :=
  constantI S_ 32 50000#32

def val_main_v13 : (⟨S800000, .i32⟩ : BufTy).Contents (Elt F) :=
  broadcastInDim S800000 ![] bcast_S_S800000 (val_main_c_2 (F := F))

def val_main_v14 : (⟨S800000, .i32⟩ : BufTy).Contents (Elt F) :=
  addi (val_main_v3 (F := F) x3) (val_main_v13 (F := F))

def val_main_v15 : (⟨S800000, .i32⟩ : BufTy).Contents (Elt F) :=
  select (val_main_v12 (F := F) x3) (val_main_v14 (F := F) x3) (val_main_v3 (F := F) x3)

def val_main_v16 : (⟨S800000x1, .i32⟩ : BufTy).Contents (Elt F) :=
  broadcastInDim S800000x1 ![0] bcast_S800000_S800000x1_0 (val_main_v15 (F := F) x3)

def val_main_v17 : FVec F S800000x48 .f32 :=
  Host.gather gather_S50000x48_S800000x1_S800000x48_1_0_n_n_0_1_148 (x0) (val_main_v16 (F := F) x3)

def val_main_c_3 : (⟨S_, .i32⟩ : BufTy).Contents (Elt F) :=
  constantI S_ 32 0#32

def val_main_v18 : (⟨S800000, .i32⟩ : BufTy).Contents (Elt F) :=
  broadcastInDim S800000 ![] bcast_S_S800000 (val_main_c_3 (F := F))

def val_main_v19 : (⟨S800000, .i1⟩ : BufTy).Contents (Elt F) :=
  cmpi .slt (x5) (val_main_v18 (F := F))

def val_main_c_4 : (⟨S_, .i32⟩ : BufTy).Contents (Elt F) :=
  constantI S_ 32 128#32

def val_main_v20 : (⟨S800000, .i32⟩ : BufTy).Contents (Elt F) :=
  broadcastInDim S800000 ![] bcast_S_S800000 (val_main_c_4 (F := F))

def val_main_v21 : (⟨S800000, .i32⟩ : BufTy).Contents (Elt F) :=
  addi (x5) (val_main_v20 (F := F))

def val_main_v22 : (⟨S800000, .i32⟩ : BufTy).Contents (Elt F) :=
  select (val_main_v19 (F := F) x5) (val_main_v21 (F := F) x5) (x5)

def val_main_v23 : (⟨S800000x1, .i32⟩ : BufTy).Contents (Elt F) :=
  broadcastInDim S800000x1 ![0] bcast_S800000_S800000x1_0 (val_main_v22 (F := F) x5)

def val_main_v24 : FVec F S800000x32 .f32 :=
  Host.gather gather_S128x32_S800000x1_S800000x32_1_0_n_n_0_1_132 (x2) (val_main_v23 (F := F) x5)

def val_main_v25 : FVec F S800000x176 .f32 :=
  concatenate S800000x176 1 [⟨S800000x48, (val_main_v10 (F := F) x0 x3)⟩, ⟨S800000x48, (val_main_v17 (F := F) x0 x3)⟩, ⟨S800000x48, (x1)⟩, ⟨S800000x32, (val_main_v24 (F := F) x2 x5)⟩] concatenates_S800000x48_S800000x48_S800000x48_S800000x32_S800000x176_d1

def val_main_v26 : FVec F S800000x64 .f32 :=
  Host.dotGeneral dot_S800000x176_S176x64_S800000x64_1_0_0_1_n_n none (val_main_v25 (F := F) x0 x1 x2 x3 x5) (x6)

def val_main_v27 : FVec F S1x64 .f32 :=
  broadcastInDim S1x64 ![1] bcast_S64_S1x64_1 (x7)

def val_main_v28 : FVec F S800000x64 .f32 :=
  broadcastInDim S800000x64 ![0, 1] bcast_S1x64_S800000x64_0_1 (val_main_v27 (F := F) x7)

def val_main_v29 : FVec F S800000x64 .f32 :=
  addf (val_main_v26 (F := F) x0 x1 x2 x3 x5 x6) (val_main_v28 (F := F) x7)

def val_main_call0_cst : FVec F S_ .f32 :=
  constant S_ .f32 0x00000000#32

def val_main_call0_v0 : FVec F S800000x64 .f32 :=
  broadcastInDim S800000x64 ![] bcast_S_S800000x64 (val_main_call0_cst (F := F))

def val_main_v30 : FVec F S800000x64 .f32 :=
  maximumf (val_main_v29 (F := F) x0 x1 x2 x3 x5 x6 x7) (val_main_call0_v0 (F := F))

def val_main_v31 : FVec F S800000x48 .f32 :=
  Host.dotGeneral dot_S800000x64_S64x48_S800000x48_1_0_0_1_n_n none (val_main_v30 (F := F) x0 x1 x2 x3 x5 x6 x7) (x8)

def val_main_v32 : FVec F S1x48 .f32 :=
  broadcastInDim S1x48 ![1] bcast_S48_S1x48_1 (x9)

def val_main_v33 : FVec F S800000x48 .f32 :=
  broadcastInDim S800000x48 ![0, 1] bcast_S1x48_S800000x48_0_1 (val_main_v32 (F := F) x9)

def val_main_v34 : FVec F S800000x48 .f32 :=
  addf (val_main_v31 (F := F) x0 x1 x2 x3 x5 x6 x7 x8) (val_main_v33 (F := F) x9)

def val_main_call1_cst : FVec F S_ .f32 :=
  constant S_ .f32 0x00000000#32

def val_main_call1_v0 : FVec F S800000x48 .f32 :=
  broadcastInDim S800000x48 ![] bcast_S_S800000x48 (val_main_call1_cst (F := F))

def val_main_v35 : FVec F S800000x48 .f32 :=
  maximumf (val_main_v34 (F := F) x0 x1 x2 x3 x5 x6 x7 x8 x9) (val_main_call1_v0 (F := F))

def val_main_cst : FVec F S_ .f32 :=
  constant S_ .f32 0x00000000#32

def val_main_v36 : FVec F S800000 .f32 :=
  Host.reduceAdd (val_main_v35 (F := F) x0 x1 x2 x3 x5 x6 x7 x8 x9) (val_main_cst (F := F)) reducesTo_S800000x48_S800000_d1 h_S_

def val_main_v37 : FVec F S800000x1 .f32 :=
  broadcastInDim S800000x1 ![0] bcast_S800000_S800000x1_0 (val_main_v36 (F := F) x0 x1 x2 x3 x5 x6 x7 x8 x9)

def val_main_cst_5 : FVec F S_ .f32 :=
  constant S_ .f32 0x42400000#32

def val_main_v38 : FVec F S800000x1 .f32 :=
  broadcastInDim S800000x1 ![] bcast_S_S800000x1 (val_main_cst_5 (F := F))

def val_main_v39 : FVec F S800000x1 .f32 :=
  Host.divf (val_main_v37 (F := F) x0 x1 x2 x3 x5 x6 x7 x8 x9) (val_main_v38 (F := F))

def val_main_v40 : FVec F S800000x48 .f32 :=
  broadcastInDim S800000x48 ![0, 1] bcast_S800000x1_S800000x48_0_1 (val_main_v39 (F := F) x0 x1 x2 x3 x5 x6 x7 x8 x9)

def val_main_v41 : FVec F S800000x48 .f32 :=
  subf (val_main_v35 (F := F) x0 x1 x2 x3 x5 x6 x7 x8 x9) (val_main_v40 (F := F) x0 x1 x2 x3 x5 x6 x7 x8 x9)

def val_main_v42 : FVec F S800000x48 .f32 :=
  mulf (val_main_v41 (F := F) x0 x1 x2 x3 x5 x6 x7 x8 x9) (val_main_v41 (F := F) x0 x1 x2 x3 x5 x6 x7 x8 x9)

def val_main_cst_6 : FVec F S_ .f32 :=
  constant S_ .f32 0x00000000#32

def val_main_v43 : FVec F S800000 .f32 :=
  Host.reduceAdd (val_main_v42 (F := F) x0 x1 x2 x3 x5 x6 x7 x8 x9) (val_main_cst_6 (F := F)) reducesTo_S800000x48_S800000_d1 h_S_

def val_main_v44 : FVec F S800000x1 .f32 :=
  broadcastInDim S800000x1 ![0] bcast_S800000_S800000x1_0 (val_main_v43 (F := F) x0 x1 x2 x3 x5 x6 x7 x8 x9)

def val_main_cst_7 : FVec F S_ .f32 :=
  constant S_ .f32 0x42400000#32

def val_main_v45 : FVec F S800000x1 .f32 :=
  broadcastInDim S800000x1 ![] bcast_S_S800000x1 (val_main_cst_7 (F := F))

def val_main_v46 : FVec F S800000x1 .f32 :=
  Host.divf (val_main_v44 (F := F) x0 x1 x2 x3 x5 x6 x7 x8 x9) (val_main_v45 (F := F))

def val_main_v47 : FVec F S800000x48 .f32 :=
  broadcastInDim S800000x48 ![0, 1] bcast_S800000x1_S800000x48_0_1 (val_main_v39 (F := F) x0 x1 x2 x3 x5 x6 x7 x8 x9)

def val_main_v48 : FVec F S800000x48 .f32 :=
  subf (val_main_v35 (F := F) x0 x1 x2 x3 x5 x6 x7 x8 x9) (val_main_v47 (F := F) x0 x1 x2 x3 x5 x6 x7 x8 x9)

def val_main_cst_8 : FVec F S_ .f32 :=
  constant S_ .f32 0x3727C5AC#32

def val_main_v49 : FVec F S800000x1 .f32 :=
  broadcastInDim S800000x1 ![] bcast_S_S800000x1 (val_main_cst_8 (F := F))

def val_main_v50 : FVec F S800000x1 .f32 :=
  addf (val_main_v46 (F := F) x0 x1 x2 x3 x5 x6 x7 x8 x9) (val_main_v49 (F := F))

def val_main_v51 : FVec F S800000x1 .f32 :=
  Host.rsqrt (val_main_v50 (F := F) x0 x1 x2 x3 x5 x6 x7 x8 x9)

def val_main_v52 : FVec F S800000x48 .f32 :=
  broadcastInDim S800000x48 ![0, 1] bcast_S800000x1_S800000x48_0_1 (val_main_v51 (F := F) x0 x1 x2 x3 x5 x6 x7 x8 x9)

def val_main_v53 : FVec F S800000x48 .f32 :=
  mulf (val_main_v48 (F := F) x0 x1 x2 x3 x5 x6 x7 x8 x9) (val_main_v52 (F := F) x0 x1 x2 x3 x5 x6 x7 x8 x9)

def val_main_v54 : FVec F S1x48 .f32 :=
  broadcastInDim S1x48 ![1] bcast_S48_S1x48_1 (x10)

def val_main_v55 : FVec F S800000x48 .f32 :=
  broadcastInDim S800000x48 ![0, 1] bcast_S1x48_S800000x48_0_1 (val_main_v54 (F := F) x10)

def val_main_v56 : FVec F S800000x48 .f32 :=
  mulf (val_main_v53 (F := F) x0 x1 x2 x3 x5 x6 x7 x8 x9) (val_main_v55 (F := F) x10)

def val_main_v57 : FVec F S1x48 .f32 :=
  broadcastInDim S1x48 ![1] bcast_S48_S1x48_1 (x11)

def val_main_v58 : FVec F S800000x48 .f32 :=
  broadcastInDim S800000x48 ![0, 1] bcast_S1x48_S800000x48_0_1 (val_main_v57 (F := F) x11)

def val_main_v59 : FVec F S800000x48 .f32 :=
  addf (val_main_v56 (F := F) x0 x1 x2 x3 x5 x6 x7 x8 x9 x10) (val_main_v58 (F := F) x11)

def val_main_cst_9 : FVec F S_ .f32 :=
  constant S_ .f32 0x00000000#32

def val_main_v60 : FVec F S50000x48 .f32 :=
  broadcastInDim S50000x48 ![] bcast_S_S50000x48 (val_main_cst_9 (F := F))

def val_main_v61 : (⟨S800000x1, .i32⟩ : BufTy).Contents (Elt F) :=
  broadcastInDim S800000x1 ![0] bcast_S800000_S800000x1_0 (val_main_v3 (F := F) x3)

def val_main_v62 : FVec F S50000x48 .f32 :=
  Host.scatterAdd scatter_S50000x48_S800000x1_S800000x48_1_0_0_1 (val_main_v60 (F := F)) (val_main_v61 (F := F) x3) (val_main_v59 (F := F) x0 x1 x2 x3 x5 x6 x7 x8 x9 x10 x11)

def val_main_c_10 : (⟨S_, .i32⟩ : BufTy).Contents (Elt F) :=
  constantI S_ 32 0#32

def val_main_v63 : (⟨S50000, .i32⟩ : BufTy).Contents (Elt F) :=
  broadcastInDim S50000 ![] bcast_S_S50000 (val_main_c_10 (F := F))

def val_main_v64 : (⟨S50000, .i1⟩ : BufTy).Contents (Elt F) :=
  cmpi .slt (x4) (val_main_v63 (F := F))

def val_main_c_11 : (⟨S_, .i32⟩ : BufTy).Contents (Elt F) :=
  constantI S_ 32 128#32

def val_main_v65 : (⟨S50000, .i32⟩ : BufTy).Contents (Elt F) :=
  broadcastInDim S50000 ![] bcast_S_S50000 (val_main_c_11 (F := F))

def val_main_v66 : (⟨S50000, .i32⟩ : BufTy).Contents (Elt F) :=
  addi (x4) (val_main_v65 (F := F))

def val_main_v67 : (⟨S50000, .i32⟩ : BufTy).Contents (Elt F) :=
  select (val_main_v64 (F := F) x4) (val_main_v66 (F := F) x4) (x4)

def val_main_v68 : (⟨S50000x1, .i32⟩ : BufTy).Contents (Elt F) :=
  broadcastInDim S50000x1 ![0] bcast_S50000_S50000x1_0 (val_main_v67 (F := F) x4)

def val_main_v69 : FVec F S50000x32 .f32 :=
  Host.gather gather_S128x32_S50000x1_S50000x32_1_0_n_n_0_1_132 (x2) (val_main_v68 (F := F) x4)

def val_main_v70 : FVec F S50000x128 .f32 :=
  concatenate S50000x128 1 [⟨S50000x48, (x0)⟩, ⟨S50000x48, (val_main_v62 (F := F) x0 x1 x2 x3 x5 x6 x7 x8 x9 x10 x11)⟩, ⟨S50000x32, (val_main_v69 (F := F) x2 x4)⟩] concatenates_S50000x48_S50000x48_S50000x32_S50000x128_d1

def val_main_v71 : FVec F S50000x64 .f32 :=
  Host.dotGeneral dot_S50000x128_S128x64_S50000x64_1_0_0_1_n_n none (val_main_v70 (F := F) x0 x1 x2 x3 x4 x5 x6 x7 x8 x9 x10 x11) (x12)

def val_main_v72 : FVec F S1x64 .f32 :=
  broadcastInDim S1x64 ![1] bcast_S64_S1x64_1 (x13)

def val_main_v73 : FVec F S50000x64 .f32 :=
  broadcastInDim S50000x64 ![0, 1] bcast_S1x64_S50000x64_0_1 (val_main_v72 (F := F) x13)

def val_main_v74 : FVec F S50000x64 .f32 :=
  addf (val_main_v71 (F := F) x0 x1 x2 x3 x4 x5 x6 x7 x8 x9 x10 x11 x12) (val_main_v73 (F := F) x13)

def val_main_call2_cst : FVec F S_ .f32 :=
  constant S_ .f32 0x00000000#32

def val_main_call2_v0 : FVec F S50000x64 .f32 :=
  broadcastInDim S50000x64 ![] bcast_S_S50000x64 (val_main_call2_cst (F := F))

def val_main_v75 : FVec F S50000x64 .f32 :=
  maximumf (val_main_v74 (F := F) x0 x1 x2 x3 x4 x5 x6 x7 x8 x9 x10 x11 x12 x13) (val_main_call2_v0 (F := F))

def val_main_v76 : FVec F S50000x48 .f32 :=
  Host.dotGeneral dot_S50000x64_S64x48_S50000x48_1_0_0_1_n_n none (val_main_v75 (F := F) x0 x1 x2 x3 x4 x5 x6 x7 x8 x9 x10 x11 x12 x13) (x14)

def val_main_v77 : FVec F S1x48 .f32 :=
  broadcastInDim S1x48 ![1] bcast_S48_S1x48_1 (x15)

def val_main_v78 : FVec F S50000x48 .f32 :=
  broadcastInDim S50000x48 ![0, 1] bcast_S1x48_S50000x48_0_1 (val_main_v77 (F := F) x15)

def val_main_v79 : FVec F S50000x48 .f32 :=
  addf (val_main_v76 (F := F) x0 x1 x2 x3 x4 x5 x6 x7 x8 x9 x10 x11 x12 x13 x14) (val_main_v78 (F := F) x15)

def val_main_call3_cst : FVec F S_ .f32 :=
  constant S_ .f32 0x00000000#32

def val_main_call3_v0 : FVec F S50000x48 .f32 :=
  broadcastInDim S50000x48 ![] bcast_S_S50000x48 (val_main_call3_cst (F := F))

def val_main_v80 : FVec F S50000x48 .f32 :=
  maximumf (val_main_v79 (F := F) x0 x1 x2 x3 x4 x5 x6 x7 x8 x9 x10 x11 x12 x13 x14 x15) (val_main_call3_v0 (F := F))

def val_main_cst_12 : FVec F S_ .f32 :=
  constant S_ .f32 0x00000000#32

def val_main_v81 : FVec F S50000 .f32 :=
  Host.reduceAdd (val_main_v80 (F := F) x0 x1 x2 x3 x4 x5 x6 x7 x8 x9 x10 x11 x12 x13 x14 x15) (val_main_cst_12 (F := F)) reducesTo_S50000x48_S50000_d1 h_S_

def val_main_v82 : FVec F S50000x1 .f32 :=
  broadcastInDim S50000x1 ![0] bcast_S50000_S50000x1_0 (val_main_v81 (F := F) x0 x1 x2 x3 x4 x5 x6 x7 x8 x9 x10 x11 x12 x13 x14 x15)

def val_main_cst_13 : FVec F S_ .f32 :=
  constant S_ .f32 0x42400000#32

def val_main_v83 : FVec F S50000x1 .f32 :=
  broadcastInDim S50000x1 ![] bcast_S_S50000x1 (val_main_cst_13 (F := F))

def val_main_v84 : FVec F S50000x1 .f32 :=
  Host.divf (val_main_v82 (F := F) x0 x1 x2 x3 x4 x5 x6 x7 x8 x9 x10 x11 x12 x13 x14 x15) (val_main_v83 (F := F))

def val_main_v85 : FVec F S50000x48 .f32 :=
  broadcastInDim S50000x48 ![0, 1] bcast_S50000x1_S50000x48_0_1 (val_main_v84 (F := F) x0 x1 x2 x3 x4 x5 x6 x7 x8 x9 x10 x11 x12 x13 x14 x15)

def val_main_v86 : FVec F S50000x48 .f32 :=
  subf (val_main_v80 (F := F) x0 x1 x2 x3 x4 x5 x6 x7 x8 x9 x10 x11 x12 x13 x14 x15) (val_main_v85 (F := F) x0 x1 x2 x3 x4 x5 x6 x7 x8 x9 x10 x11 x12 x13 x14 x15)

def val_main_v87 : FVec F S50000x48 .f32 :=
  mulf (val_main_v86 (F := F) x0 x1 x2 x3 x4 x5 x6 x7 x8 x9 x10 x11 x12 x13 x14 x15) (val_main_v86 (F := F) x0 x1 x2 x3 x4 x5 x6 x7 x8 x9 x10 x11 x12 x13 x14 x15)

def val_main_cst_14 : FVec F S_ .f32 :=
  constant S_ .f32 0x00000000#32

def val_main_v88 : FVec F S50000 .f32 :=
  Host.reduceAdd (val_main_v87 (F := F) x0 x1 x2 x3 x4 x5 x6 x7 x8 x9 x10 x11 x12 x13 x14 x15) (val_main_cst_14 (F := F)) reducesTo_S50000x48_S50000_d1 h_S_

def val_main_v89 : FVec F S50000x1 .f32 :=
  broadcastInDim S50000x1 ![0] bcast_S50000_S50000x1_0 (val_main_v88 (F := F) x0 x1 x2 x3 x4 x5 x6 x7 x8 x9 x10 x11 x12 x13 x14 x15)

def val_main_cst_15 : FVec F S_ .f32 :=
  constant S_ .f32 0x42400000#32

def val_main_v90 : FVec F S50000x1 .f32 :=
  broadcastInDim S50000x1 ![] bcast_S_S50000x1 (val_main_cst_15 (F := F))

def val_main_v91 : FVec F S50000x1 .f32 :=
  Host.divf (val_main_v89 (F := F) x0 x1 x2 x3 x4 x5 x6 x7 x8 x9 x10 x11 x12 x13 x14 x15) (val_main_v90 (F := F))

def val_main_v92 : FVec F S50000x48 .f32 :=
  broadcastInDim S50000x48 ![0, 1] bcast_S50000x1_S50000x48_0_1 (val_main_v84 (F := F) x0 x1 x2 x3 x4 x5 x6 x7 x8 x9 x10 x11 x12 x13 x14 x15)

def val_main_v93 : FVec F S50000x48 .f32 :=
  subf (val_main_v80 (F := F) x0 x1 x2 x3 x4 x5 x6 x7 x8 x9 x10 x11 x12 x13 x14 x15) (val_main_v92 (F := F) x0 x1 x2 x3 x4 x5 x6 x7 x8 x9 x10 x11 x12 x13 x14 x15)

def val_main_cst_16 : FVec F S_ .f32 :=
  constant S_ .f32 0x3727C5AC#32

def val_main_v94 : FVec F S50000x1 .f32 :=
  broadcastInDim S50000x1 ![] bcast_S_S50000x1 (val_main_cst_16 (F := F))

def val_main_v95 : FVec F S50000x1 .f32 :=
  addf (val_main_v91 (F := F) x0 x1 x2 x3 x4 x5 x6 x7 x8 x9 x10 x11 x12 x13 x14 x15) (val_main_v94 (F := F))

def val_main_v96 : FVec F S50000x1 .f32 :=
  Host.rsqrt (val_main_v95 (F := F) x0 x1 x2 x3 x4 x5 x6 x7 x8 x9 x10 x11 x12 x13 x14 x15)

def val_main_v97 : FVec F S50000x48 .f32 :=
  broadcastInDim S50000x48 ![0, 1] bcast_S50000x1_S50000x48_0_1 (val_main_v96 (F := F) x0 x1 x2 x3 x4 x5 x6 x7 x8 x9 x10 x11 x12 x13 x14 x15)

def val_main_v98 : FVec F S50000x48 .f32 :=
  mulf (val_main_v93 (F := F) x0 x1 x2 x3 x4 x5 x6 x7 x8 x9 x10 x11 x12 x13 x14 x15) (val_main_v97 (F := F) x0 x1 x2 x3 x4 x5 x6 x7 x8 x9 x10 x11 x12 x13 x14 x15)

def val_main_v99 : FVec F S1x48 .f32 :=
  broadcastInDim S1x48 ![1] bcast_S48_S1x48_1 (x16)

def val_main_v100 : FVec F S50000x48 .f32 :=
  broadcastInDim S50000x48 ![0, 1] bcast_S1x48_S50000x48_0_1 (val_main_v99 (F := F) x16)

def val_main_v101 : FVec F S50000x48 .f32 :=
  mulf (val_main_v98 (F := F) x0 x1 x2 x3 x4 x5 x6 x7 x8 x9 x10 x11 x12 x13 x14 x15) (val_main_v100 (F := F) x16)

def val_main_v102 : FVec F S1x48 .f32 :=
  broadcastInDim S1x48 ![1] bcast_S48_S1x48_1 (x17)

def val_main_v103 : FVec F S50000x48 .f32 :=
  broadcastInDim S50000x48 ![0, 1] bcast_S1x48_S50000x48_0_1 (val_main_v102 (F := F) x17)

def val_main_v104 : FVec F S50000x48 .f32 :=
  addf (val_main_v101 (F := F) x0 x1 x2 x3 x4 x5 x6 x7 x8 x9 x10 x11 x12 x13 x14 x15 x16) (val_main_v103 (F := F) x17)

def val_main_cst_17 : FVec F S_ .f32 :=
  constant S_ .f32 0x00000000#32

def val_main_v105 : FVec F S128x48 .f32 :=
  broadcastInDim S128x48 ![] bcast_S_S128x48 (val_main_cst_17 (F := F))

def val_main_v106 : (⟨S50000x1, .i32⟩ : BufTy).Contents (Elt F) :=
  broadcastInDim S50000x1 ![0] bcast_S50000_S50000x1_0 (x4)

def val_main_v107 : FVec F S128x48 .f32 :=
  Host.scatterAdd scatter_S128x48_S50000x1_S50000x48_1_0_0_1 (val_main_v105 (F := F)) (val_main_v106 (F := F) x4) (val_main_v104 (F := F) x0 x1 x2 x3 x4 x5 x6 x7 x8 x9 x10 x11 x12 x13 x14 x15 x16 x17)

def val_main_cst_18 : FVec F S_ .f32 :=
  constant S_ .f32 0x3F800000#32

def val_main_v108 : FVec F S50000x1 .f32 :=
  broadcastInDim S50000x1 ![] bcast_S_S50000x1 (val_main_cst_18 (F := F))

def val_main_cst_19 : FVec F S_ .f32 :=
  constant S_ .f32 0x00000000#32

def val_main_v109 : FVec F S128x1 .f32 :=
  broadcastInDim S128x1 ![] bcast_S_S128x1 (val_main_cst_19 (F := F))

def val_main_v110 : (⟨S50000x1, .i32⟩ : BufTy).Contents (Elt F) :=
  broadcastInDim S50000x1 ![0] bcast_S50000_S50000x1_0 (x4)

def val_main_v111 : FVec F S128x1 .f32 :=
  Host.scatterAdd scatter_S128x1_S50000x1_S50000x1_1_0_0_1 (val_main_v109 (F := F)) (val_main_v110 (F := F) x4) (val_main_v108 (F := F))

def val_main_cst_20 : FVec F S_ .f32 :=
  constant S_ .f32 0x3F800000#32

def val_main_v112 : FVec F S128x1 .f32 :=
  broadcastInDim S128x1 ![] bcast_S_S128x1 (val_main_cst_20 (F := F))

def val_main_v113 : FVec F S128x1 .f32 :=
  maximumf (val_main_v111 (F := F) x4) (val_main_v112 (F := F))

def val_main_v114 : FVec F S128x48 .f32 :=
  broadcastInDim S128x48 ![0, 1] bcast_S128x1_S128x48_0_1 (val_main_v113 (F := F) x4)

def val_main_v115 : FVec F S128x48 .f32 :=
  Host.divf (val_main_v107 (F := F) x0 x1 x2 x3 x4 x5 x6 x7 x8 x9 x10 x11 x12 x13 x14 x15 x16 x17) (val_main_v114 (F := F) x4)

def val_main_cst_21 : FVec F S_ .f32 :=
  constant S_ .f32 0x00000000#32

def val_main_v116 : FVec F S128x48 .f32 :=
  broadcastInDim S128x48 ![] bcast_S_S128x48 (val_main_cst_21 (F := F))

def val_main_v117 : (⟨S800000x1, .i32⟩ : BufTy).Contents (Elt F) :=
  broadcastInDim S800000x1 ![0] bcast_S800000_S800000x1_0 (x5)

def val_main_v118 : FVec F S128x48 .f32 :=
  Host.scatterAdd scatter_S128x48_S800000x1_S800000x48_1_0_0_1 (val_main_v116 (F := F)) (val_main_v117 (F := F) x5) (val_main_v59 (F := F) x0 x1 x2 x3 x5 x6 x7 x8 x9 x10 x11)

def val_main_cst_22 : FVec F S_ .f32 :=
  constant S_ .f32 0x3F800000#32

def val_main_v119 : FVec F S800000x1 .f32 :=
  broadcastInDim S800000x1 ![] bcast_S_S800000x1 (val_main_cst_22 (F := F))

def val_main_cst_23 : FVec F S_ .f32 :=
  constant S_ .f32 0x00000000#32

def val_main_v120 : FVec F S128x1 .f32 :=
  broadcastInDim S128x1 ![] bcast_S_S128x1 (val_main_cst_23 (F := F))

def val_main_v121 : (⟨S800000x1, .i32⟩ : BufTy).Contents (Elt F) :=
  broadcastInDim S800000x1 ![0] bcast_S800000_S800000x1_0 (x5)

def val_main_v122 : FVec F S128x1 .f32 :=
  Host.scatterAdd scatter_S128x1_S800000x1_S800000x1_1_0_0_1 (val_main_v120 (F := F)) (val_main_v121 (F := F) x5) (val_main_v119 (F := F))

def val_main_cst_24 : FVec F S_ .f32 :=
  constant S_ .f32 0x3F800000#32

def val_main_v123 : FVec F S128x1 .f32 :=
  broadcastInDim S128x1 ![] bcast_S_S128x1 (val_main_cst_24 (F := F))

def val_main_v124 : FVec F S128x1 .f32 :=
  maximumf (val_main_v122 (F := F) x5) (val_main_v123 (F := F))

def val_main_v125 : FVec F S128x48 .f32 :=
  broadcastInDim S128x48 ![0, 1] bcast_S128x1_S128x48_0_1 (val_main_v124 (F := F) x5)

def val_main_v126 : FVec F S128x48 .f32 :=
  Host.divf (val_main_v118 (F := F) x0 x1 x2 x3 x5 x6 x7 x8 x9 x10 x11) (val_main_v125 (F := F) x5)

def val_main_v127 : FVec F S128x128 .f32 :=
  concatenate S128x128 1 [⟨S128x32, (x2)⟩, ⟨S128x48, (val_main_v115 (F := F) x0 x1 x2 x3 x4 x5 x6 x7 x8 x9 x10 x11 x12 x13 x14 x15 x16 x17)⟩, ⟨S128x48, (val_main_v126 (F := F) x0 x1 x2 x3 x5 x6 x7 x8 x9 x10 x11)⟩] concatenates_S128x32_S128x48_S128x48_S128x128_d1

def val_main_v128 : FVec F S128x64 .f32 :=
  Host.dotGeneral dot_S128x128_S128x64_S128x64_1_0_0_1_n_n none (val_main_v127 (F := F) x0 x1 x2 x3 x4 x5 x6 x7 x8 x9 x10 x11 x12 x13 x14 x15 x16 x17) (x18)

def val_main_v129 : FVec F S1x64 .f32 :=
  broadcastInDim S1x64 ![1] bcast_S64_S1x64_1 (x19)

def val_main_v130 : FVec F S128x64 .f32 :=
  broadcastInDim S128x64 ![0, 1] bcast_S1x64_S128x64_0_1 (val_main_v129 (F := F) x19)

def val_main_v131 : FVec F S128x64 .f32 :=
  addf (val_main_v128 (F := F) x0 x1 x2 x3 x4 x5 x6 x7 x8 x9 x10 x11 x12 x13 x14 x15 x16 x17 x18) (val_main_v130 (F := F) x19)

def val_main_call4_cst : FVec F S_ .f32 :=
  constant S_ .f32 0x00000000#32

def val_main_call4_v0 : FVec F S128x64 .f32 :=
  broadcastInDim S128x64 ![] bcast_S_S128x64 (val_main_call4_cst (F := F))

def val_main_v132 : FVec F S128x64 .f32 :=
  maximumf (val_main_v131 (F := F) x0 x1 x2 x3 x4 x5 x6 x7 x8 x9 x10 x11 x12 x13 x14 x15 x16 x17 x18 x19) (val_main_call4_v0 (F := F))

def val_main_v133 : FVec F S128x32 .f32 :=
  Host.dotGeneral dot_S128x64_S64x32_S128x32_1_0_0_1_n_n none (val_main_v132 (F := F) x0 x1 x2 x3 x4 x5 x6 x7 x8 x9 x10 x11 x12 x13 x14 x15 x16 x17 x18 x19) (x20)

def val_main_v134 : FVec F S1x32 .f32 :=
  broadcastInDim S1x32 ![1] bcast_S32_S1x32_1 (x21)

def val_main_v135 : FVec F S128x32 .f32 :=
  broadcastInDim S128x32 ![0, 1] bcast_S1x32_S128x32_0_1 (val_main_v134 (F := F) x21)

def val_main_v136 : FVec F S128x32 .f32 :=
  addf (val_main_v133 (F := F) x0 x1 x2 x3 x4 x5 x6 x7 x8 x9 x10 x11 x12 x13 x14 x15 x16 x17 x18 x19 x20) (val_main_v135 (F := F) x21)

def val_main_call5_cst : FVec F S_ .f32 :=
  constant S_ .f32 0x00000000#32

def val_main_call5_v0 : FVec F S128x32 .f32 :=
  broadcastInDim S128x32 ![] bcast_S_S128x32 (val_main_call5_cst (F := F))

def val_main_v137 : FVec F S128x32 .f32 :=
  maximumf (val_main_v136 (F := F) x0 x1 x2 x3 x4 x5 x6 x7 x8 x9 x10 x11 x12 x13 x14 x15 x16 x17 x18 x19 x20 x21) (val_main_call5_v0 (F := F))

def val_main_cst_25 : FVec F S_ .f32 :=
  constant S_ .f32 0x00000000#32

def val_main_v138 : FVec F S128 .f32 :=
  Host.reduceAdd (val_main_v137 (F := F) x0 x1 x2 x3 x4 x5 x6 x7 x8 x9 x10 x11 x12 x13 x14 x15 x16 x17 x18 x19 x20 x21) (val_main_cst_25 (F := F)) reducesTo_S128x32_S128_d1 h_S_

def val_main_v139 : FVec F S128x1 .f32 :=
  broadcastInDim S128x1 ![0] bcast_S128_S128x1_0 (val_main_v138 (F := F) x0 x1 x2 x3 x4 x5 x6 x7 x8 x9 x10 x11 x12 x13 x14 x15 x16 x17 x18 x19 x20 x21)

def val_main_cst_26 : FVec F S_ .f32 :=
  constant S_ .f32 0x42000000#32

def val_main_v140 : FVec F S128x1 .f32 :=
  broadcastInDim S128x1 ![] bcast_S_S128x1 (val_main_cst_26 (F := F))

def val_main_v141 : FVec F S128x1 .f32 :=
  Host.divf (val_main_v139 (F := F) x0 x1 x2 x3 x4 x5 x6 x7 x8 x9 x10 x11 x12 x13 x14 x15 x16 x17 x18 x19 x20 x21) (val_main_v140 (F := F))

def val_main_v142 : FVec F S128x32 .f32 :=
  broadcastInDim S128x32 ![0, 1] bcast_S128x1_S128x32_0_1 (val_main_v141 (F := F) x0 x1 x2 x3 x4 x5 x6 x7 x8 x9 x10 x11 x12 x13 x14 x15 x16 x17 x18 x19 x20 x21)

def val_main_v143 : FVec F S128x32 .f32 :=
  subf (val_main_v137 (F := F) x0 x1 x2 x3 x4 x5 x6 x7 x8 x9 x10 x11 x12 x13 x14 x15 x16 x17 x18 x19 x20 x21) (val_main_v142 (F := F) x0 x1 x2 x3 x4 x5 x6 x7 x8 x9 x10 x11 x12 x13 x14 x15 x16 x17 x18 x19 x20 x21)

def val_main_v144 : FVec F S128x32 .f32 :=
  mulf (val_main_v143 (F := F) x0 x1 x2 x3 x4 x5 x6 x7 x8 x9 x10 x11 x12 x13 x14 x15 x16 x17 x18 x19 x20 x21) (val_main_v143 (F := F) x0 x1 x2 x3 x4 x5 x6 x7 x8 x9 x10 x11 x12 x13 x14 x15 x16 x17 x18 x19 x20 x21)

def val_main_cst_27 : FVec F S_ .f32 :=
  constant S_ .f32 0x00000000#32

def val_main_v145 : FVec F S128 .f32 :=
  Host.reduceAdd (val_main_v144 (F := F) x0 x1 x2 x3 x4 x5 x6 x7 x8 x9 x10 x11 x12 x13 x14 x15 x16 x17 x18 x19 x20 x21) (val_main_cst_27 (F := F)) reducesTo_S128x32_S128_d1 h_S_

def val_main_v146 : FVec F S128x1 .f32 :=
  broadcastInDim S128x1 ![0] bcast_S128_S128x1_0 (val_main_v145 (F := F) x0 x1 x2 x3 x4 x5 x6 x7 x8 x9 x10 x11 x12 x13 x14 x15 x16 x17 x18 x19 x20 x21)

def val_main_cst_28 : FVec F S_ .f32 :=
  constant S_ .f32 0x42000000#32

def val_main_v147 : FVec F S128x1 .f32 :=
  broadcastInDim S128x1 ![] bcast_S_S128x1 (val_main_cst_28 (F := F))

def val_main_v148 : FVec F S128x1 .f32 :=
  Host.divf (val_main_v146 (F := F) x0 x1 x2 x3 x4 x5 x6 x7 x8 x9 x10 x11 x12 x13 x14 x15 x16 x17 x18 x19 x20 x21) (val_main_v147 (F := F))

def val_main_v149 : FVec F S128x32 .f32 :=
  broadcastInDim S128x32 ![0, 1] bcast_S128x1_S128x32_0_1 (val_main_v141 (F := F) x0 x1 x2 x3 x4 x5 x6 x7 x8 x9 x10 x11 x12 x13 x14 x15 x16 x17 x18 x19 x20 x21)

def val_main_v150 : FVec F S128x32 .f32 :=
  subf (val_main_v137 (F := F) x0 x1 x2 x3 x4 x5 x6 x7 x8 x9 x10 x11 x12 x13 x14 x15 x16 x17 x18 x19 x20 x21) (val_main_v149 (F := F) x0 x1 x2 x3 x4 x5 x6 x7 x8 x9 x10 x11 x12 x13 x14 x15 x16 x17 x18 x19 x20 x21)

def val_main_cst_29 : FVec F S_ .f32 :=
  constant S_ .f32 0x3727C5AC#32

def val_main_v151 : FVec F S128x1 .f32 :=
  broadcastInDim S128x1 ![] bcast_S_S128x1 (val_main_cst_29 (F := F))

def val_main_v152 : FVec F S128x1 .f32 :=
  addf (val_main_v148 (F := F) x0 x1 x2 x3 x4 x5 x6 x7 x8 x9 x10 x11 x12 x13 x14 x15 x16 x17 x18 x19 x20 x21) (val_main_v151 (F := F))

def val_main_v153 : FVec F S128x1 .f32 :=
  Host.rsqrt (val_main_v152 (F := F) x0 x1 x2 x3 x4 x5 x6 x7 x8 x9 x10 x11 x12 x13 x14 x15 x16 x17 x18 x19 x20 x21)

def val_main_v154 : FVec F S128x32 .f32 :=
  broadcastInDim S128x32 ![0, 1] bcast_S128x1_S128x32_0_1 (val_main_v153 (F := F) x0 x1 x2 x3 x4 x5 x6 x7 x8 x9 x10 x11 x12 x13 x14 x15 x16 x17 x18 x19 x20 x21)

def val_main_v155 : FVec F S128x32 .f32 :=
  mulf (val_main_v150 (F := F) x0 x1 x2 x3 x4 x5 x6 x7 x8 x9 x10 x11 x12 x13 x14 x15 x16 x17 x18 x19 x20 x21) (val_main_v154 (F := F) x0 x1 x2 x3 x4 x5 x6 x7 x8 x9 x10 x11 x12 x13 x14 x15 x16 x17 x18 x19 x20 x21)

def val_main_v156 : FVec F S1x32 .f32 :=
  broadcastInDim S1x32 ![1] bcast_S32_S1x32_1 (x22)

def val_main_v157 : FVec F S128x32 .f32 :=
  broadcastInDim S128x32 ![0, 1] bcast_S1x32_S128x32_0_1 (val_main_v156 (F := F) x22)

def val_main_v158 : FVec F S128x32 .f32 :=
  mulf (val_main_v155 (F := F) x0 x1 x2 x3 x4 x5 x6 x7 x8 x9 x10 x11 x12 x13 x14 x15 x16 x17 x18 x19 x20 x21) (val_main_v157 (F := F) x22)

def val_main_v159 : FVec F S1x32 .f32 :=
  broadcastInDim S1x32 ![1] bcast_S32_S1x32_1 (x23)

def val_main_v160 : FVec F S128x32 .f32 :=
  broadcastInDim S128x32 ![0, 1] bcast_S1x32_S128x32_0_1 (val_main_v159 (F := F) x23)

def val_main_v161 : FVec F S128x32 .f32 :=
  addf (val_main_v158 (F := F) x0 x1 x2 x3 x4 x5 x6 x7 x8 x9 x10 x11 x12 x13 x14 x15 x16 x17 x18 x19 x20 x21 x22) (val_main_v160 (F := F) x23)

end Cert.ReferenceIdeal.Read

end
-- ==== Proof.LibNaryResult.lean ====
import Idealize.ShloMosaic.Lib.StableHlo.Run

noncomputable section

namespace Idealize.ShloMosaic.StableHlo

variable {nD : Nat} {τ : Topo} {sig : RefSig} {Val : EltTy → Type}
variable {x a b c e g h i j y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl

theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl

theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
import Idealize.ShloMosaic.Lib.StableHlo.Run
import proofs.«416324_j14577119003008_3_alg».proof.Proof.LibNaryResult

noncomputable section

namespace Idealize.ShloMosaic.StableHlo

variable {nD : Nat} {τ : Topo} {sig : RefSig} {Val : EltTy → Type}
variable {x a y : Ref sig .tc}

theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl

theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in

macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.LibReadStretchRw.lean ====
import proofs.«416324_j14577119003008_3_alg».proof.Proof.LibReadStretch

open Idealize.ShloMosaic.StableHlo in

macro "read_stretch_rw" : tactic =>
  `(tactic| repeat (first
      | rw [nullary_result] | rw [unary_result] | rw [binary_result] | rw [ternary_result] | rw [quaternary_result]
      | rw [reshape_result] | rw [nary4_result] | rw [nary3_result] | rw [nary2_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)
      | (rw [nary_result_ne]; rotate_left; decide)))
-- ==== Proof.RefStretchEdge.lean ====
import proofs.«416324_j14577119003008_3_alg».proof.Proof.RefRun
import proofs.«416324_j14577119003008_3_alg».proof.Proof.RefRead
import proofs.«416324_j14577119003008_3_alg».proof.Proof.LibReadStretchRw

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F] (W : Valuation τ sig (Elt F))

/-- Stretch A: three gathered rows per edge, concatenated with the edge's own features. -/
theorem stretchA_v25 : after opsA W main_v25 = Read.val_main_v25 (F := F) (W main_arg0) (W main_arg1) (W main_arg2) (W main_arg3) (W main_arg5) := by
  unfold opsA
  simp only [after_cons, after_nil]
  rw [nary4_result]
  generalize hU : (binary main_arg2 main_v23 main_v24 _ _ _ _).result _ = U
  have e10 : U main_v10 = Read.val_main_v10 (F := F) (W main_arg0) (W main_arg3) := by subst hU; read_stretch; rfl
  have e17 : U main_v17 = Read.val_main_v17 (F := F) (W main_arg0) (W main_arg3) := by subst hU; read_stretch; rfl
  have e1 : U main_arg1 = W main_arg1 := by subst hU; read_stretch
  have e24 : U main_v24 = Read.val_main_v24 (F := F) (W main_arg2) (W main_arg5) := by subst hU; read_stretch; rfl
  rw [e10, e17, e1, e24]
  rfl

theorem stretchA_v3 : after opsA W main_v3 = Read.val_main_v3 (F := F) (W main_arg3) := by
  unfold opsA
  read_stretch
  rfl

/-- Stretch B: the two-layer perceptron. -/
theorem stretchB_v35 {x0 x1 x2 x3 x5 x6 x7 x8 x9} (h25 : W main_v25 = Read.val_main_v25 (F := F) x0 x1 x2 x3 x5)
    (h6 : W main_arg6 = x6) (h7 : W main_arg7 = x7) (h8 : W main_arg8 = x8) (h9 : W main_arg9 = x9) :
    after opsB W main_v35 = Read.val_main_v35 (F := F) x0 x1 x2 x3 x5 x6 x7 x8 x9 := by
  unfold opsB
  read_stretch
  rw [h25, h6, h7, h8, h9]
  rfl

/-- Stretch C: each row normalised, scaled and shifted. -/
theorem stretchC_v59 {x0 x1 x2 x3 x5 x6 x7 x8 x9 x10 x11} (h35 : W main_v35 = Read.val_main_v35 (F := F) x0 x1 x2 x3 x5 x6 x7 x8 x9)
    (h10 : W main_arg10 = x10) (h11 : W main_arg11 = x11) :
    after opsC W main_v59 = Read.val_main_v59 (F := F) x0 x1 x2 x3 x5 x6 x7 x8 x9 x10 x11 := by
  unfold opsC
  read_stretch
  rw [h35, h10, h11]
  rfl

end Cert.ReferenceIdeal.RefStages

end
-- ==== Proof.RefStretchNode.lean ====
import proofs.«416324_j14577119003008_3_alg».proof.Proof.RefRun
import proofs.«416324_j14577119003008_3_alg».proof.Proof.RefRead
import proofs.«416324_j14577119003008_3_alg».proof.Proof.LibReadStretchRw

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F] (W : Valuation τ sig (Elt F))

/-- Stretch D: the edge rows summed at their receivers and a gathered global row, concatenated with the node's own row. -/
theorem stretchD_v70 {x0 x1 x2 x3 x4 x5 x6 x7 x8 x9 x10 x11} (h59 : W main_v59 = Read.val_main_v59 (F := F) x0 x1 x2 x3 x5 x6 x7 x8 x9 x10 x11)
    (hv3 : W main_v3 = Read.val_main_v3 (F := F) x3) (h0 : W main_arg0 = x0) (h2 : W main_arg2 = x2) (h4 : W main_arg4 = x4) :
    after opsD W main_v70 = Read.val_main_v70 (F := F) x0 x1 x2 x3 x4 x5 x6 x7 x8 x9 x10 x11 := by
  unfold opsD
  simp only [after_cons, after_nil]
  rw [nary3_result]
  generalize hU : (binary main_arg2 main_v68 main_v69 _ _ _ _).result _ = U
  have e0 : U main_arg0 = x0 := by subst hU; read_stretch; exact h0
  have e62 : U main_v62 = Read.val_main_v62 (F := F) x0 x1 x2 x3 x5 x6 x7 x8 x9 x10 x11 := by
    subst hU; read_stretch; rw [h59, hv3]; rfl
  have e69 : U main_v69 = Read.val_main_v69 (F := F) x2 x4 := by subst hU; read_stretch; rw [h2, h4]; rfl
  rw [e0, e62, e69]
  rfl

/-- Stretch E: the two-layer perceptron. -/
theorem stretchE_v80 {x0 x1 x2 x3 x4 x5 x6 x7 x8 x9 x10 x11 x12 x13 x14 x15} (h70 : W main_v70 = Read.val_main_v70 (F := F) x0 x1 x2 x3 x4 x5 x6 x7 x8 x9 x10 x11)
    (h12 : W main_arg12 = x12) (h13 : W main_arg13 = x13) (h14 : W main_arg14 = x14) (h15 : W main_arg15 = x15) :
    after opsE W main_v80 = Read.val_main_v80 (F := F) x0 x1 x2 x3 x4 x5 x6 x7 x8 x9 x10 x11 x12 x13 x14 x15 := by
  unfold opsE
  read_stretch
  rw [h70, h12, h13, h14, h15]
  rfl

/-- Stretch F: each row normalised, scaled and shifted. -/
theorem stretchF_v104 {x0 x1 x2 x3 x4 x5 x6 x7 x8 x9 x10 x11 x12 x13 x14 x15 x16 x17} (h80 : W main_v80 = Read.val_main_v80 (F := F) x0 x1 x2 x3 x4 x5 x6 x7 x8 x9 x10 x11 x12 x13 x14 x15)
    (h16 : W main_arg16 = x16) (h17 : W main_arg17 = x17) :
    after opsF W main_v104 = Read.val_main_v104 (F := F) x0 x1 x2 x3 x4 x5 x6 x7 x8 x9 x10 x11 x12 x13 x14 x15 x16 x17 := by
  unfold opsF
  read_stretch
  rw [h80, h16, h17]
  rfl

end Cert.ReferenceIdeal.RefStages

end
-- ==== Proof.RefStretchGlobal.lean ====
import proofs.«416324_j14577119003008_3_alg».proof.Proof.RefRun
import proofs.«416324_j14577119003008_3_alg».proof.Proof.RefRead
import proofs.«416324_j14577119003008_3_alg».proof.Proof.LibReadStretchRw

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F] (W : Valuation τ sig (Elt F))

/-- Stretch G: the means of the node rows and of the edge rows over each graph, concatenated with the global features. -/
theorem stretchG_v127 {x0 x1 x2 x3 x4 x5 x6 x7 x8 x9 x10 x11 x12 x13 x14 x15 x16 x17} (h104 : W main_v104 = Read.val_main_v104 (F := F) x0 x1 x2 x3 x4 x5 x6 x7 x8 x9 x10 x11 x12 x13 x14 x15 x16 x17)
    (h59 : W main_v59 = Read.val_main_v59 (F := F) x0 x1 x2 x3 x5 x6 x7 x8 x9 x10 x11) (h2 : W main_arg2 = x2) (h4 : W main_arg4 = x4) (h5 : W main_arg5 = x5) :
    after opsG W main_v127 = Read.val_main_v127 (F := F) x0 x1 x2 x3 x4 x5 x6 x7 x8 x9 x10 x11 x12 x13 x14 x15 x16 x17 := by
  unfold opsG
  simp only [after_cons, after_nil]
  rw [nary3_result]
  generalize hU : (binary main_v118 main_v125 main_v126 _ _ _ _).result _ = U
  have e2 : U main_arg2 = x2 := by subst hU; read_stretch; exact h2
  have e115 : U main_v115 = Read.val_main_v115 (F := F) x0 x1 x2 x3 x4 x5 x6 x7 x8 x9 x10 x11 x12 x13 x14 x15 x16 x17 := by
    subst hU; read_stretch; rw [h104, h4]; rfl
  have e126 : U main_v126 = Read.val_main_v126 (F := F) x0 x1 x2 x3 x5 x6 x7 x8 x9 x10 x11 := by
    subst hU; read_stretch; rw [h59, h5]; rfl
  rw [e2, e115, e126]
  rfl

/-- Stretch H: the two-layer perceptron. -/
theorem stretchH_v137 {x0 x1 x2 x3 x4 x5 x6 x7 x8 x9 x10 x11 x12 x13 x14 x15 x16 x17 x18 x19 x20 x21} (h127 : W main_v127 = Read.val_main_v127 (F := F) x0 x1 x2 x3 x4 x5 x6 x7 x8 x9 x10 x11 x12 x13 x14 x15 x16 x17)
    (h18 : W main_arg18 = x18) (h19 : W main_arg19 = x19) (h20 : W main_arg20 = x20) (h21 : W main_arg21 = x21) :
    after opsH W main_v137 = Read.val_main_v137 (F := F) x0 x1 x2 x3 x4 x5 x6 x7 x8 x9 x10 x11 x12 x13 x14 x15 x16 x17 x18 x19 x20 x21 := by
  unfold opsH
  read_stretch
  rw [h127, h18, h19, h20, h21]
  rfl

/-- Stretch I: each row normalised, scaled and shifted. -/
theorem stretchI_v161 {x0 x1 x2 x3 x4 x5 x6 x7 x8 x9 x10 x11 x12 x13 x14 x15 x16 x17 x18 x19 x20 x21 x22 x23} (h137 : W main_v137 = Read.val_main_v137 (F := F) x0 x1 x2 x3 x4 x5 x6 x7 x8 x9 x10 x11 x12 x13 x14 x15 x16 x17 x18 x19 x20 x21)
    (h22 : W main_arg22 = x22) (h23 : W main_arg23 = x23) :
    after opsI W main_v161 = Read.val_main_v161 (F := F) x0 x1 x2 x3 x4 x5 x6 x7 x8 x9 x10 x11 x12 x13 x14 x15 x16 x17 x18 x19 x20 x21 x22 x23 := by
  unfold opsI
  read_stretch
  rw [h137, h22, h23]
  rfl

end Cert.ReferenceIdeal.RefStages

end
-- ==== Proof.RefStages.lean ====
import proofs.«416324_j14577119003008_3_alg».proof.Proof.RefStretchEdge
import proofs.«416324_j14577119003008_3_alg».proof.Proof.RefStretchNode
import proofs.«416324_j14577119003008_3_alg».proof.Proof.RefStretchGlobal
import Idealize.ShloMosaic.Lib.Pipeline.Frame

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Each operation of `L` writes a reference listed in `Lw`. -/
def Writes (L : List (HloOp τ sig (Elt F))) (Lw : List (Ref sig .tc)) : Prop :=
  L.Forall fun op => op.writes ⊆ (Lw.map (Proc.devRef (τ := τ) .tc)).toFinset

theorem writes : Writes (F := F) opsA opsA_W ∧ Writes (F := F) opsB opsB_W ∧ Writes (F := F) opsC opsC_W ∧ Writes (F := F) opsD opsD_W ∧ Writes (F := F) opsE opsE_W ∧ Writes (F := F) opsF opsF_W ∧ Writes (F := F) opsG opsG_W ∧ Writes (F := F) opsH opsH_W ∧ Writes (F := F) opsI opsI_W := by
  simp only [Writes, List.Forall, nullary_writes, unary_writes, binary_writes, ternary_writes, reshape_writes, nary_writes, Finset.singleton_subset_iff, List.mem_toFinset]
  and_intros <;> exact List.mem_map_of_mem (by decide)

theorem keep {L Lw} (w : Writes (F := F) L Lw) {W : Valuation τ sig (Elt F)} {r : Ref sig .tc} (h : r ∉ Lw := by decide) :
    after L W r = W r :=
  after_of_writes_sub L W w h

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

variable (V : Valuation τ sig (Elt F))

/-- A stretch that writes no argument array leaves all of them as they were. -/
theorem keep_args {L Lw} (w : Writes (F := F) L Lw) {W} (h : ∀ r ∈ args, W r = V r) (d : ∀ r ∈ args, r ∉ Lw := by decide) :
    ∀ r ∈ args, after L W r = V r :=
  fun r hr => (keep w (d r hr)).trans (h r hr)

/-- From any contents `V` the whole line leaves the three results at their stages and the argument arrays untouched. -/
theorem after_ops : after ops V main_v104 = Read.val_main_v104 (F := F) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17)
    ∧ after ops V main_v59 = Read.val_main_v59 (F := F) (V main_arg0) (V main_arg1) (V main_arg2) (V main_arg3) (V main_arg5) (V main_arg6) (V main_arg7) (V main_arg8) (V main_arg9) (V main_arg10) (V main_arg11)
    ∧ after ops V main_v161 = Read.val_main_v161 (F := F) (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17) (V main_arg18) (V main_arg19) (V main_arg20) (V main_arg21) (V main_arg22) (V main_arg23)
    ∧ ∀ r ∈ args, after ops V r = V r := by
  obtain ⟨wA, wB, wC, wD, wE, wF, wG, wH, wI⟩ := writes (F := F)
  have kA := keep_args V wA fun _ _ => rfl
  have kB := keep_args V wB kA
  have kC := keep_args V wC kB
  have kD := keep_args V wD kC
  have kE := keep_args V wE kD
  have kF := keep_args V wF kE
  have kG := keep_args V wG kF
  have kH := keep_args V wH kG
  have c := stretchC_v59 _ (stretchB_v35 _ (stretchA_v25 V) (kA _ (by decide)) (kA _ (by decide)) (kA _ (by decide)) (kA _ (by decide))) (kB _ (by decide)) (kB _ (by decide))
  have f := stretchF_v104 _ (stretchE_v80 _ (stretchD_v70 _ c ((keep wC).trans ((keep wB).trans (stretchA_v3 V))) (kC _ (by decide)) (kC _ (by decide)) (kC _ (by decide)))
    (kD _ (by decide)) (kD _ (by decide)) (kD _ (by decide)) (kD _ (by decide))) (kE _ (by decide)) (kE _ (by decide))
  have c' := (keep wF).trans ((keep wE).trans ((keep wD).trans c))
  have i := stretchI_v161 _ (stretchH_v137 _ (stretchG_v127 _ f c' (kF _ (by decide)) (kF _ (by decide)) (kF _ (by decide)))
    (kG _ (by decide)) (kG _ (by decide)) (kG _ (by decide)) (kG _ (by decide))) (kH _ (by decide)) (kH _ (by decide))
  rw [ops_cut]
  simp only [after_append]
  exact ⟨(keep wI).trans ((keep wH).trans ((keep wG).trans f)), (keep wI).trans ((keep wH).trans ((keep wG).trans c')), i, keep_args V wI kH⟩

variable (m : (ℓ : Loc nD τ sig) → Buf (Elt F) ℓ) (ρ : Dev nD → PrngReg)

theorem ref_run : θ_run defs (onTc (τ := τ) (main (F := F))) ⟨m, fun _ => 0, ρ⟩ fun r => ∀ c : Dev nD,
      r.2.mem ((c.tc : Thread nD τ).loc main_v104) = Read.val_main_v104 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v59) = Read.val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v161) = Read.val_main_v161 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => by
    obtain ⟨o104, o59, o161, k⟩ := after_ops (launchContents m c)
    refine ⟨(h c _).trans o104, (h c _).trans o59, (h c _).trans o161, ?_⟩
    and_intros <;> exact (h c _).trans (k _ (by decide)))
    (run_after m ρ)

end Cert.ReferenceIdeal.RefStages

end
-- ==== Proof.Spec.lean ====
import Idealize.ShloMosaic.PureOps.Ideal
import Idealize.ShloMosaic.PureOps.Ideal.Laws

noncomputable section

namespace Cert.Mlp

open Idealize.ShloMosaic

variable {K H D : ℕ}

/-- First layer at hidden unit `a`: `max (∑ₖ cat k · w1 k a + b1 a) 0`. -/
def hidden (cat : Fin K → EReal) (w1 : Fin K → Fin H → EReal) (b1 : Fin H → EReal) (a : Fin H) : EReal :=
  max ((∑ k : Fin K, cat k * w1 k a) + b1 a) 0

/-- Second layer at output unit `b`: `max (∑ₐ h1 a · w2 a b + b2 b) 0`. -/
def act (h1 : Fin H → EReal) (w2 : Fin H → Fin D → EReal) (b2 : Fin D → EReal) (b : Fin D) : EReal :=
  max ((∑ a : Fin H, h1 a * w2 a b) + b2 b) 0

def mean (n : EReal) (h : Fin D → EReal) : EReal :=
  Ideal.div (∑ b : Fin D, h b) n

def spread (n : EReal) (h : Fin D → EReal) : EReal :=
  Ideal.div (∑ b : Fin D, (h b - mean n h) * (h b - mean n h)) n

/-- `(h j − mean) · (spread + ε)^(−1/2) · g j + be j`. -/
def norm (n eps : EReal) (h g be : Fin D → EReal) (j : Fin D) : EReal :=
  (h j - mean n h) * Ideal.rsqrt (spread n h + eps) * g j + be j

/-- One row of a stage: both layers, then the normalisation; all three stages are instances of it. -/
def row (n eps : EReal) (cat : Fin K → EReal) (w1 : Fin K → Fin H → EReal) (b1 : Fin H → EReal)
    (w2 : Fin H → Fin D → EReal) (b2 g be : Fin D → EReal) (j : Fin D) : EReal :=
  norm n eps (act (hidden cat w1 b1) w2 b2) g be j

/-- Rows of widths 48, 48, 48, 32 side by side. -/
def cat4 (a b c : Fin 48 → EReal) (d : Fin 32 → EReal) (k : Fin 176) : EReal :=
  if h₁ : k.val < 48 then a ⟨k.val, h₁⟩
  else if h₂ : k.val < 96 then b ⟨k.val - 48, by omega⟩
  else if h₃ : k.val < 144 then c ⟨k.val - 96, by omega⟩
  else d ⟨k.val - 144, by omega⟩

/-- Rows of widths 48, 48, 32 side by side. -/
def cat3 (a b : Fin 48 → EReal) (c : Fin 32 → EReal) (k : Fin 128) : EReal :=
  if h₁ : k.val < 48 then a ⟨k.val, h₁⟩
  else if h₂ : k.val < 96 then b ⟨k.val - 48, by omega⟩
  else c ⟨k.val - 96, by omega⟩

abbrev n48 : EReal := Ideal.ofBits .f32 0x42400000#32
abbrev n32 : EReal := Ideal.ofBits .f32 0x42000000#32
abbrev eps : EReal := Ideal.ofBits .f32 0x3727C5AC#32

end Cert.Mlp

end
-- ==== Proof.BridgeBase.lean ====
import proofs.«416324_j14577119003008_3_alg».proof.KernelIdeal
import proofs.«416324_j14577119003008_3_alg».proof.Proof.RefRead
import proofs.«416324_j14577119003008_3_alg».proof.Proof.Spec

noncomputable section

namespace Cert.Proof.Bridge

open Cert.KernelIdeal Cert.ReferenceIdeal.Read Idealize.ShloMosaic Cert

variable (m : (ℓ : Loc nD τ sig) → Buf (Elt Ideal) ℓ) (c : Dev nD)

/-- An argument's launch contents on core `c`. -/
abbrev arg (b : Ref sig .tc) := m ((c.tc : Thread nD τ).loc b)

/-- Every index word names a row of the table it indexes. -/
structure InRange : Prop where
  edges : ∀ i, IntOp.cmpi .sge (arg m c main_arg3 i) 0#32 = 1#1 ∧ IntOp.cmpi .slt (arg m c main_arg3 i) 50000#32 = 1#1
  nodes : ∀ i, IntOp.cmpi .sge (arg m c main_arg4 i) 0#32 = 1#1 ∧ IntOp.cmpi .slt (arg m c main_arg4 i) 128#32 = 1#1
  edgeGlobals : ∀ i, IntOp.cmpi .sge (arg m c main_arg5 i) 0#32 = 1#1 ∧ IntOp.cmpi .slt (arg m c main_arg5 i) 128#32 = 1#1

/-- The reference's edge stage, node stage, joined input of the global stage, and global stage, at the launch contents. -/
abbrev refEdge := val_main_v59 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11)
abbrev refNode := val_main_v104 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev refJoined := val_main_v127 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17)
abbrev refGlobal := val_main_v161 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23)

variable {K H D : ℕ}

theorem row_congr (n eps : EReal) {cat cat' : Fin K → EReal} {w1 w1' : Fin K → Fin H → EReal} {b1 b1' : Fin H → EReal}
    {w2 w2' : Fin H → Fin D → EReal} {b2 b2' g g' be be' : Fin D → EReal} (hc : cat = cat') (hw1 : w1 = w1') (hb1 : b1 = b1')
    (hw2 : w2 = w2') (hb2 : b2 = b2') (hg : g = g') (hbe : be = be') (j : Fin D) :
    Mlp.row n eps cat w1 b1 w2 b2 g be j = Mlp.row n eps cat' w1' b1' w2' b2' g' be' j := by
  subst hc hw1 hb1 hw2 hb2 hg hbe; rfl

theorem cat4_congr {a a' b b' c c' : Fin 48 → EReal} {d d' : Fin 32 → EReal} (ha : a = a') (hb : b = b') (hc : c = c') (hd : d = d') :
    Mlp.cat4 a b c d = Mlp.cat4 a' b' c' d' := by
  subst ha hb hc hd; rfl

theorem cat3_congr {a a' b b' : Fin 48 → EReal} {c c' : Fin 32 → EReal} (ha : a = a') (hb : b = b') (hc : c = c') :
    Mlp.cat3 a b c = Mlp.cat3 a' b' c' := by
  subst ha hb hc; rfl

end Cert.Proof.Bridge

end
-- ==== Proof.ValueRow.lean ====
import proofs.«416324_j14577119003008_3_alg».proof.Proof.Spec
import Idealize.ShloMosaic.Lib.StackMember
import Idealize.ShloMosaic.Lib.ValueLayout

noncomputable section

namespace Cert.Mlp.Block

open Idealize.ShloMosaic Idealize.ShloMosaic.ValueIdx

variable {α : Type} {m k h d : ℕ} {φ₁ φ₂ φ₃ φ₄ : FTy}

-- A vector stood up as a column keeps its entries: both indices have the same row-major position.
theorem shapeCast_a_a1_apply (x : (⟨1, ![m]⟩ : Shape).Idx → α) (hc : (⟨1, ![m]⟩ : Shape).ShapeCasts ⟨2, ![m, 1]⟩) (p : Fin m) (u : Fin 1) :
    shapeCast ⟨2, ![m, 1]⟩ x hc (ix2 p u) = x (ix1 p) :=
  shapeCast_apply x hc _ _ (by
    rw [Shape.rowMajor_val_two, Shape.rowMajor_val_one]
    show p.val = p.val * 1 + u.val
    omega)

-- A column spread over the lanes reads, in every lane, the column at that row.
theorem broadcastTo_a1_ab_apply (v : (⟨2, ![m, 1]⟩ : Shape).Idx → α) (hb : (⟨2, ![m, 1]⟩ : Shape).Broadcasts ⟨2, ![m, d]⟩) (p : Fin m) (q : Fin d) :
    broadcastTo ⟨2, ![m, d]⟩ v hb (ix2 p q) = v (ix2 p (0 : Fin 1)) := by
  refine broadcastTo_apply v hb (ix2 p q) (ix2 p (0 : Fin 1)) fun ax => ?_
  match ax with
  | ⟨0, _⟩ =>
    show p.val = if m = 1 then 0 else p.val
    split
    · omega
    · rfl
  | ⟨1, _⟩ => rfl

-- Blocks joined side by side read, at a column `pre + c` inside piece `i`'s span, that piece at column `c`.
theorem concat_cols_apply {n w : ℕ} (xs : List ((s : Shape) × (s.Idx → α))) (hx : Shape.Concatenates (xs.map (·.1)) ⟨2, ![m, n]⟩ 1)
    (p : Fin m) (j : Fin n) (i : ℕ) (x : (⟨2, ![m, w]⟩ : Shape).Idx → α) (hxi : xs[i]? = some ⟨⟨2, ![m, w]⟩, x⟩) (pre : ℕ)
    (hpre : (((xs.take i).map (·.1)).map fun s => if h : s.rank = 2 then s.size ((1 : Fin 2).cast h.symm) else 0).sum = pre)
    (c : Fin w) (hc : pre + c.val = j.val) : concatenate ⟨2, ![m, n]⟩ 1 xs hx (ix2 p j) = x (ix2 p c) :=
  have ⟨hi, e⟩ := List.getElem?_eq_some_iff.mp hxi
  concatenate_apply_piece 1 xs hx (ix2 p j) i hi _ x e rfl pre hpre (ix2 p c)
    (fun b hb => match b with | ⟨0, _⟩ => rfl | ⟨1, _⟩ => absurd rfl hb) hc

-- The sum along a row of a block.
theorem rowSum_apply (X : FVec Ideal ⟨2, ![m, d]⟩ .f32) (hr : (⟨2, ![m, d]⟩ : Shape).Reduces [1] ⟨1, ![m]⟩) (p : Fin m) :
    multiReduction .add [1] ⟨1, ![m]⟩ X 0x00000000#32 hr (.inl rfl) rfl (ix1 p) = ∑ b : Fin d, X (ix2 p b) := by
  refine (Ideal.multiReduction_add_single X _ hr _ _ (ix1 p)).trans (Finset.sum_congr rfl fun b _ => congrArg X ?_)
  funext a
  match a with
  | ⟨0, _⟩ => rfl
  | ⟨1, _⟩ => rfl

section Layers

variable (x : FVec Ideal ⟨2, ![m, k]⟩ φ₁) (w : FVec Ideal ⟨2, ![k, h]⟩ φ₂) (b : FVec Ideal ⟨2, ![1, h]⟩ .f32)
  (hb : (⟨2, ![1, h]⟩ : Shape).Broadcasts ⟨2, ![m, h]⟩)

-- One layer: a product into the zero block, plus a bias row, positive part.
def layer : FVec Ideal ⟨2, ![m, h]⟩ .f32 :=
  maximumf (addf (matmul (DotDims.plain m k h) none x w (constant ⟨2, ![m, h]⟩ .f32 0x00000000#32)) (broadcastTo ⟨2, ![m, h]⟩ b hb))
    (broadcast ⟨2, ![m, h]⟩ (Scalar.ofBits .f32 0x00000000#32))

theorem layer_apply (p : Fin m) (a : Fin h) :
    layer x w b hb (ix2 p a) = hidden (fun c => x (ix2 p c)) (fun c a => w (ix2 c a)) (fun a => b (ix2 0 a)) a := by
  unfold layer
  rw [maximumf_apply, addf_apply, matmul_zero_eq_dotGeneral, StackMember.dotGeneral_plain_apply, broadcastTo_1b_ab_apply, broadcast_apply]
  exact congrArg (max _) Ideal.ofBits_zero_f32

end Layers

section Norm

variable (n e : BitVec 32) (X : FVec Ideal ⟨2, ![m, d]⟩ .f32) (g be : FVec Ideal ⟨2, ![1, d]⟩ .f32)
  (hr : (⟨2, ![m, d]⟩ : Shape).Reduces [1] ⟨1, ![m]⟩) (hc : (⟨1, ![m]⟩ : Shape).ShapeCasts ⟨2, ![m, 1]⟩)
  (hb : (⟨2, ![m, 1]⟩ : Shape).Broadcasts ⟨2, ![m, d]⟩) (hd : (⟨2, ![1, d]⟩ : Shape).Broadcasts ⟨2, ![m, d]⟩)

-- A block's row sums over the float `n`, as a column.
def colDiv : FVec Ideal ⟨2, ![m, 1]⟩ .f32 :=
  divf (shapeCast ⟨2, ![m, 1]⟩ (multiReduction .add [1] ⟨1, ![m]⟩ X 0x00000000#32 hr (.inl rfl) rfl) hc) (broadcast ⟨2, ![m, 1]⟩ (Scalar.ofBits .f32 n))

-- A block less its rows' means.
def centred : FVec Ideal ⟨2, ![m, d]⟩ .f32 := subf X (broadcastTo ⟨2, ![m, d]⟩ (colDiv n X hr hc) hb)

-- The normalisation: the centred block over the root of its rows' spread plus `e`, scaled and shifted by two rows.
def normed : FVec Ideal ⟨2, ![m, d]⟩ .f32 :=
  addf (mulf (mulf (centred n X hr hc hb)
      (broadcastTo ⟨2, ![m, d]⟩ (rsqrt (addf (colDiv n (mulf (centred n X hr hc hb) (centred n X hr hc hb)) hr hc) (broadcast ⟨2, ![m, 1]⟩ (Scalar.ofBits .f32 e)))) hb))
    (broadcastTo ⟨2, ![m, d]⟩ g hd)) (broadcastTo ⟨2, ![m, d]⟩ be hd)

theorem colDiv_apply (p : Fin m) (u : Fin 1) : colDiv n X hr hc (ix2 p u) = mean (Ideal.ofBits .f32 n) fun b => X (ix2 p b) := by
  unfold colDiv
  rw [divf_apply, shapeCast_a_a1_apply, rowSum_apply, broadcast_apply]
  rfl

theorem centred_apply (p : Fin m) (q : Fin d) :
    centred n X hr hc hb (ix2 p q) = X (ix2 p q) - mean (Ideal.ofBits .f32 n) fun b => X (ix2 p b) := by
  unfold centred
  rw [subf_apply, broadcastTo_a1_ab_apply, colDiv_apply]

theorem normed_apply (p : Fin m) (q : Fin d) :
    normed n e X g be hr hc hb hd (ix2 p q)
      = norm (Ideal.ofBits .f32 n) (Ideal.ofBits .f32 e) (fun b => X (ix2 p b)) (fun b => g (ix2 0 b)) (fun b => be (ix2 0 b)) q := by
  unfold normed
  rw [addf_apply, mulf_apply, mulf_apply, centred_apply, broadcastTo_a1_ab_apply, broadcastTo_1b_ab_apply, broadcastTo_1b_ab_apply]
  show _ * Ideal.rsqrt (addf (F := Ideal) (φ := .f32) _ _ _) * _ + _ = _
  rw [addf_apply, colDiv_apply, broadcast_apply]
  simp only [mulf_apply, centred_apply]
  rfl

end Norm

-- The whole row function: two layers, a change of format `c` between them that keeps every value, then the normalisation.
theorem row_apply (n e : BitVec 32) (x : FVec Ideal ⟨2, ![m, k]⟩ φ₁) (w1 : FVec Ideal ⟨2, ![k, h]⟩ φ₂) (b1 : FVec Ideal ⟨2, ![1, h]⟩ .f32)
    (c : FVec Ideal ⟨2, ![m, h]⟩ .f32 → FVec Ideal ⟨2, ![m, h]⟩ φ₃) (hc : ∀ Y i, c Y i = Y i)
    (w2 : FVec Ideal ⟨2, ![h, d]⟩ φ₄) (b2 g be : FVec Ideal ⟨2, ![1, d]⟩ .f32) (h1 h2 hr hs hb hd) (p : Fin m) (q : Fin d) :
    normed n e (layer (c (layer x w1 b1 h1)) w2 b2 h2) g be hr hs hb hd (ix2 p q)
      = row (Ideal.ofBits .f32 n) (Ideal.ofBits .f32 e) (fun k => x (ix2 p k)) (fun k a => w1 (ix2 k a)) (fun a => b1 (ix2 0 a))
          (fun a b => w2 (ix2 a b)) (fun b => b2 (ix2 0 b)) (fun b => g (ix2 0 b)) (fun b => be (ix2 0 b)) q := by
  rw [normed_apply]
  refine congrArg (fun H => norm _ _ H _ _ q) (funext fun b => (layer_apply _ w2 b2 h2 p b).trans ?_)
  exact congrArg (fun H => hidden H _ _ b) (funext fun a => (hc _ _).trans (layer_apply x w1 b1 h1 p a))

end Cert.Mlp.Block

end
-- ==== Proof.ValueEdge.lean ====
import proofs.«416324_j14577119003008_3_alg».proof.Proof.Gen.KernelIdeal.Skeleton
import proofs.«416324_j14577119003008_3_alg».proof.Proof.ValueRow

namespace Cert.KernelIdeal.Val

open Cert.KernelIdeal Cert.KernelIdeal.Gen Idealize.ShloMosaic Idealize.ShloMosaic.ValueIdx Cert

-- Four blocks joined along the columns read, at a row, as `cat4` of that row of each.
theorem side_by_side_apply (x0 x2 x4 : FVec Ideal S8000x48 .bf16) (x6 : FVec Ideal S8000x32 .bf16) (p : Fin 8000) (k : Fin 176) :
    concatenate S8000x176 1 [⟨S8000x48, x0⟩, ⟨S8000x48, x2⟩, ⟨S8000x48, x4⟩, ⟨S8000x32, x6⟩]
        concatenates_S8000x48_S8000x48_S8000x48_S8000x32_S8000x176_d1 (ix2 p k)
      = Mlp.cat4 (fun c => x0 (ix2 p c)) (fun c => x2 (ix2 p c)) (fun c => x4 (ix2 p c)) (fun c => x6 (ix2 p c)) k := by
  unfold Mlp.cat4
  split
  · exact Mlp.Block.concat_cols_apply _ _ p k 0 x0 rfl 0 rfl _ (Nat.zero_add _)
  split
  · exact Mlp.Block.concat_cols_apply _ _ p k 1 x2 rfl 48 rfl _ (by show 48 + (k.val - 48) = k.val; omega)
  split
  · exact Mlp.Block.concat_cols_apply _ _ p k 2 x4 rfl 96 rfl _ (by show 96 + (k.val - 96) = k.val; omega)
  · exact Mlp.Block.concat_cols_apply _ _ p k 3 x6 rfl 144 rfl _ (by show 144 + (k.val - 144) = k.val; omega)

-- The body's value at an element is the row function of that row of its operands: the general statement at these sizes; the narrowing between the layers keeps every value.
theorem edge_payload_apply (v0 v2 v4 : Vec Ideal S8000x48 .bf16) (v6 : Vec Ideal S8000x32 .bf16) (v9 : Vec Ideal S176x64 .bf16) (v12 : Vec Ideal S1x64 .f32) (v19 : Vec Ideal S64x48 .bf16) (v22 v46 v50 : Vec Ideal S1x48 .f32) (p : Fin 8000) (q : Fin 48) :
    k0_pay1 (F := Ideal) (k0_pay2 v0 v2 v4 v6 v9 v12 v19 v22) (k0_pay3 v0 v2 v4 v6 v9 v12 v19 v22) (k0_pay4 v0 v2 v4 v6 v9 v12 v19 v22) v46 v50 (ix2 p q)
      = Mlp.row Mlp.n48 Mlp.eps
          (Mlp.cat4 (fun k => v0 (ix2 p k)) (fun k => v2 (ix2 p k)) (fun k => v4 (ix2 p k)) (fun k => v6 (ix2 p k)))
          (fun k a => v9 (ix2 k a)) (fun a => v12 (ix2 0 a)) (fun a b => v19 (ix2 a b)) (fun b => v22 (ix2 0 b)) (fun b => v46 (ix2 0 b)) (fun b => v50 (ix2 0 b)) q := by
  refine (Mlp.Block.row_apply 0x42400000#32 0x3727C5AC#32 _ _ _ (fun Y => truncf .bf16 Y bitsLt_bf16_f32) (fun _ _ => rfl) _ _ _ _ _ _ _ _ _ _ p q).trans ?_
  simp only [shapeCast_self, side_by_side_apply]

end Cert.KernelIdeal.Val
-- ==== Proof.BlockElement.lean ====
import Idealize.ShloMosaic.Lib.Pipeline.Value

namespace Cert

open Idealize.ShloMosaic

theorem vec2_zero : (![0, 0] : Fin 2 → Nat) = fun _ => 0 := funext (Fin.forall_fin_two.mpr ⟨rfl, rfl⟩)

-- a load through the whole two-axis block reads the block
theorem ld_origin2 {Val : EltTy → Type} {e : EltTy} {sz : Fin 2 → Nat} (inb : ∀ a, ![0, 0] a + sz a ≤ sz a)
    (X : (⟨2, sz⟩ : Shape).Idx → Val e) : View.ld X (Rect.unit (s := ⟨2, sz⟩) ![0, 0] sz inb) = X :=
  View.ld_unit_zero vec2_zero inb X

-- an element of a block sits in the array, axis by axis, at block index times block extent plus its own coordinate
theorem apply_rect_emb {sig : RefSig} {G : Pipeline.Grid} (w : Pipeline.Window sig G) (t : Fin G.N) {α : Type}
    (X : w.shape.Idx → α) (y : (w.xblock (G.coords t)).Idx) (i : w.shape.Idx)
    (h : ∀ a, w.index t a * w.size a + y a = i a) : X ((w.rect t).emb y) = X i :=
  congrArg X (funext fun a => Fin.ext ((w.rect_emb_val t y a).trans (h a)))

-- at block index zero an element keeps its coordinates
theorem apply_rect_emb_zero {sig : RefSig} {G : Pipeline.Grid} (w : Pipeline.Window sig G) (t : Fin G.N)
    (h : ∀ a, w.index t a = 0) {α : Type} (X : w.shape.Idx → α) (y : (w.xblock (G.coords t)).Idx) (i : w.shape.Idx)
    (hy : ∀ a, (y a : Nat) = i a) : X ((w.rect t).emb y) = X i :=
  apply_rect_emb w t X y i fun a => by rw [h a, Nat.zero_mul, Nat.zero_add, hy a]

-- an index inside a rectangle's range on every axis is in the rectangle's part of the whole array
theorem mem_slice_whole_unit {sig : RefSig} {κ : Kind} (b : Ref sig κ) {off size : Fin b.ty.shape.rank → Nat}
    {inb : ∀ a, off a + size a ≤ b.ty.shape.size a} {i : b.ty.shape.Idx}
    (h : ∀ a, off a ≤ i a ∧ i a < off a + size a) : i ∈ ((View.whole b).slice (Rect.unit off size inb)).set := by
  rw [View.set_slice_whole]; exact Rect.mem_set_unit.mpr h

end Cert
-- ==== Proof.ArrayEdge.lean ====
import proofs.«416324_j14577119003008_3_alg».proof.Proof.FrameEdge
import proofs.«416324_j14577119003008_3_alg».proof.Proof.ValueEdge
import proofs.«416324_j14577119003008_3_alg».proof.Proof.BlockElement

noncomputable section

namespace Cert.KernelIdeal.Val

open Cert.KernelIdeal Cert.KernelIdeal.Gen Cert.KernelIdeal.Frame Idealize.ShloMosaic Idealize.ShloMosaic.TcCoe
open Idealize.ShloMosaic.ValueIdx Cert

variable (V : (c : Dev nD) → (b : Ref sig .tc) → Buf (Elt Ideal) ((c : Thread nD τ).loc b))

theorem edge_index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0)
    ∧ win0_10.index t (0 : Fin 2) = t.val ∧ win0_10.index t (1 : Fin 2) = 0 :=
  (by decide +kernel : ∀ t : Fin grid0.N, _)

abbrev edgeOut (c : Dev nD) : Vec Ideal S800000x48 .f32 := fun i =>
  Mlp.row Mlp.n48 Mlp.eps
    (Mlp.cat4 (fun k => V c main_v5 (ix2 (i 0) k)) (fun k => V c main_v7 (ix2 (i 0) k)) (fun k => V c main_v10 (ix2 (i 0) k)) (fun k => V c main_v9 (ix2 (i 0) k)))
    (fun k a => V c main_v11 (ix2 k a)) (fun a => V c main_v13 (ix2 0 a)) (fun a b => V c main_v12 (ix2 a b))
    (fun b => V c main_v14 (ix2 0 b)) (fun b => V c main_v15 (ix2 0 b)) (fun b => V c main_v16 (ix2 0 b)) (i 1)

theorem edge_flushed (c : Dev nD) (t : Fin cfg0.N) :
    (dat0 V c).flushed 10 t = ((cfg0.win 10).blk t).view.read (Elt Ideal) (edgeOut V c) := by
  obtain ⟨⟨a0, a1⟩, ⟨b0, b1⟩, ⟨c0, c1⟩, ⟨d0, d1⟩, e4, e5, e6, e7, e8, e9, o0, o1⟩ := edge_index_facts t
  show (cfg0.win 10).cut (grid0.coords t) ((dat0 V c).after 10 t) = _
  rw [after0_10]
  unfold out0_10
  rw [View.canon_unit_zero vec2_zero]
  simp only [ld_origin2]
  funext j
  obtain ⟨p, q, rfl⟩ : ∃ p q, j = ix2 p q := ⟨_, _, eq_ix2 j⟩
  refine (edge_payload_apply _ _ _ _ _ _ _ _ _ _ p q).trans ?_
  show _ = edgeOut V c ((win0_10.rect t).emb (ix2 p q))
  have hv := win0_10.rect_emb_val t (ix2 p q)
  generalize (win0_10.rect t).emb (ix2 p q) = i at hv
  have h0 : t.val * 8000 + p.val = (i 0).val := by rw [hv (0 : Fin 2), o0]; rfl
  obtain rfl : q = i 1 := Fin.ext (by rw [hv (1 : Fin 2), o1, Nat.zero_mul, Nat.zero_add])
  have r0 (k) : iblk0 V c 0 t (ix2 p k) = V c main_v5 (ix2 (i 0) k) :=
    apply_rect_emb win0_0 t (V c main_v5) (ix2 p k) (ix2 (i 0) k) (Fin.forall_fin_two.mpr ⟨by rw [a0]; exact h0, by rw [a1, Nat.zero_mul, Nat.zero_add]⟩)
  have r1 (k) : iblk0 V c 1 t (ix2 p k) = V c main_v7 (ix2 (i 0) k) :=
    apply_rect_emb win0_1 t (V c main_v7) (ix2 p k) (ix2 (i 0) k) (Fin.forall_fin_two.mpr ⟨by rw [b0]; exact h0, by rw [b1, Nat.zero_mul, Nat.zero_add]⟩)
  have r2 (k) : iblk0 V c 2 t (ix2 p k) = V c main_v10 (ix2 (i 0) k) :=
    apply_rect_emb win0_2 t (V c main_v10) (ix2 p k) (ix2 (i 0) k) (Fin.forall_fin_two.mpr ⟨by rw [c0]; exact h0, by rw [c1, Nat.zero_mul, Nat.zero_add]⟩)
  have r3 (k) : iblk0 V c 3 t (ix2 p k) = V c main_v9 (ix2 (i 0) k) :=
    apply_rect_emb win0_3 t (V c main_v9) (ix2 p k) (ix2 (i 0) k) (Fin.forall_fin_two.mpr ⟨by rw [d0]; exact h0, by rw [d1, Nat.zero_mul, Nat.zero_add]⟩)
  rw [show iblk0 V c 4 t = V c main_v11 from funext fun y => apply_rect_emb_zero win0_4 t e4 (V c main_v11) y y fun _ => rfl,
    show iblk0 V c 5 t = V c main_v13 from funext fun y => apply_rect_emb_zero win0_5 t e5 (V c main_v13) y y fun _ => rfl,
    show iblk0 V c 6 t = V c main_v12 from funext fun y => apply_rect_emb_zero win0_6 t e6 (V c main_v12) y y fun _ => rfl,
    show iblk0 V c 7 t = V c main_v14 from funext fun y => apply_rect_emb_zero win0_7 t e7 (V c main_v14) y y fun _ => rfl,
    show iblk0 V c 8 t = V c main_v15 from funext fun y => apply_rect_emb_zero win0_8 t e8 (V c main_v15) y y fun _ => rfl,
    show iblk0 V c 9 t = V c main_v16 from funext fun y => apply_rect_emb_zero win0_9 t e9 (V c main_v16) y y fun _ => rfl]
  simp only [r0, r1, r2, r3]

theorem edge_covered (i : S800000x48.Idx) :
    ∃ t : Fin cfg0.N, (cfg0.win 10).flush t = true ∧ i ∈ ((cfg0.win 10).blk t).view.set := by
  have ht : (i 0).val / 8000 < cfg0.N := by rw [show cfg0.N = 100 from N_0]; have : (i 0).val < 800000 := (i 0).isLt; omega
  obtain ⟨-, -, -, -, -, -, -, -, -, -, o0, o1⟩ := edge_index_facts ⟨_, ht⟩
  refine ⟨⟨_, ht⟩, flush0_10 _, mem_slice_whole_unit main_v17 (Fin.forall_fin_two.mpr ⟨?_, ?_⟩)⟩
  · rw [o0]; exact ⟨Nat.div_mul_le_self _ _, Nat.lt_div_mul_add (by decide)⟩
  · rw [o1, Nat.zero_mul, Nat.zero_add]; exact ⟨Nat.zero_le _, (i 1).isLt⟩

theorem edge_array (c : Dev nD) (p : Fin 800000) (q : Fin 48) :
    (Frame.dat0 V c).arrAt 10 cfg0.N (ix2 p q) = Mlp.row Mlp.n48 Mlp.eps
      (Mlp.cat4 (fun k => V c main_v5 (ix2 p k)) (fun k => V c main_v7 (ix2 p k)) (fun k => V c main_v10 (ix2 p k)) (fun k => V c main_v9 (ix2 p k)))
      (fun k a => V c main_v11 (ix2 k a)) (fun a => V c main_v13 (ix2 0 a)) (fun a b => V c main_v12 (ix2 a b))
      (fun b => V c main_v14 (ix2 0 b)) (fun b => V c main_v15 (ix2 0 b)) (fun b => V c main_v16 (ix2 0 b)) q :=
  congrFun ((dat0 V c).arrAt_eq_of_cover 10 (edgeOut V c) (fun t _ => edge_flushed V c t) edge_covered) (ix2 p q)

end Cert.KernelIdeal.Val

end
-- ==== Proof.GlueMask.lean ====
import Idealize.ShloMosaic.Lib.ValueIdx
import Idealize.ShloMosaic.Lib.ReduceAll
import Idealize.ShloMosaic.Lib.StableHlo.Predicate

namespace Cert.KernelIdeal.Glue.Mask

open Idealize.ShloMosaic Idealize.ShloMosaic.StableHlo
open Idealize.ShloMosaic.ValueIdx

theorem foldl_andi_one {ι : Type} (f : ι → BitVec 1) (h : ∀ n, f n = 1#1) (l : List ι) :
    l.foldl (fun r n => IntOp.andi r (f n)) 1#1 = 1#1 := by
  induction l with
  | nil => rfl
  | cons a l ih => rwa [List.foldl_cons, h, show IntOp.andi 1#1 1#1 = 1#1 by decide]

-- A signed word in [0, n] is not negative and at most n.
theorem word_in_range (w : BitVec 32) (n : ℕ) (hn : n + 1 < 2 ^ 31)
    (h : IntOp.cmpi .sge w 0#32 = 1#1 ∧ IntOp.cmpi .slt w (BitVec.ofNat 32 (n + 1)) = 1#1) :
    IntOp.cmpi .slt w 0#32 = 0#1 ∧ IntOp.cmpi .sle w (BitVec.ofNat 32 n) = 1#1 := by
  have en := Predicate.toInt_ofNat_small (n + 1) hn
  have eh := Predicate.toInt_ofNat_small n (by omega)
  have e0 : (0#32 : BitVec 32).toInt = 0 := by decide
  simp only [IntOp.cmpi, Predicate.ofBool_eq_one_iff, BitVec.sle, BitVec.slt, decide_eq_true_eq, en, eh, e0] at h ⊢
  refine ⟨?_, by omega⟩
  rw [show decide (w.toInt < 0) = false from decide_eq_false (by omega)]; rfl

variable {sv sc st sk u0 u1 u2 uh uh' uo : Shape} {axes : List (Fin sc.rank)}
  {d0 : Fin u0.rank → Fin sv.rank} {d1 : Fin u1.rank → Fin sv.rank} {dv : Fin sv.rank → Fin sc.rank}
  {dz : Fin u2.rank → Fin sc.rank} {dh' : Fin uh'.rank → Fin uh.rank} {dh : Fin uh.rank → Fin sc.rank}
  {dk : Fin st.rank → Fin sk.rank}
  (hb0 : u0.BroadcastsInDim sv d0) (hb1 : u1.BroadcastsInDim sv d1) (hbv : sv.BroadcastsInDim sc dv)
  (hbz : u2.BroadcastsInDim sc dz) (hbh' : uh'.BroadcastsInDim uh dh') (hbh : uh.BroadcastsInDim sc dh)
  (hbk : st.BroadcastsInDim sk dk) (hred : sc.ReducesTo axes st) (hu : 0 < uo.numel)

-- The index words a take gathers with: a negative word moved up by `b`, laid out as the gather wants them.
def wrapped (v : IVec sv 32) (b : BitVec 32) : IVec sc 32 :=
  broadcastInDim sc dv hbv (select (cmpi .slt v (broadcastInDim sv d0 hb0 (constantI u0 32 0#32)))
    (addi v (broadcastInDim sv d1 hb1 (constantI u1 32 b))) v)

-- A take's row mask: "not negative and at most n", reduced by "and" from 1.
def inTable (w : IVec sc 32) (n : ℕ) : IVec st 1 :=
  Host.reduce IntOp.andi
    (andi (cmpi .sge w (broadcastInDim sc dz hbz (constantI u2 32 0#32)))
      (cmpi .sle w (broadcastInDim sc dh hbh (broadcastInDim uh dh' hbh' (constantI uh' 32 (BitVec.ofNat 32 n))))))
    (constantI uo 1 1#1) hred hu

-- When every index word lies in [0, n] no word moves and the mask is 1 at every row: the masked rows are the rows.
theorem take_unmasked {α : Type} (v : IVec sv 32) (b : BitVec 32) (n : ℕ) (hn : n + 1 < 2 ^ 31)
    (hv : ∀ p, IntOp.cmpi .sge (v p) 0#32 = 1#1 ∧ IntOp.cmpi .slt (v p) (BitVec.ofNat 32 (n + 1)) = 1#1)
    (g fill : sk.Idx → α) (i : sk.Idx) :
    select (broadcastInDim sk dk hbk (inTable hbz hbh' hbh hred hu (wrapped hb0 hb1 hbv v b) n)) g fill i = g i := by
  rw [select_apply]
  show Scalar.select (Host.reduce IntOp.andi _ _ hred hu _) _ _ = _
  rw [Host.reduce_eq_foldl, show constantI uo 1 1#1 _ = 1#1 from rfl, foldl_andi_one, select_one]
  intro q
  show IntOp.andi (IntOp.cmpi .sge (Scalar.select (IntOp.cmpi .slt (v _) 0#32) _ (v _)) 0#32)
    (IntOp.cmpi .sle (Scalar.select (IntOp.cmpi .slt (v _) 0#32) _ (v _)) (BitVec.ofNat 32 n)) = 1#1
  rw [(word_in_range _ n hn (hv _)).1, select_zero, (hv _).1, (word_in_range _ n hn (hv _)).2]
  decide

end Cert.KernelIdeal.Glue.Mask
-- ==== Proof.GlueTakes.lean ====
import proofs.«416324_j14577119003008_3_alg».proof.Proof.Gen.KernelIdeal.Regions
import proofs.«416324_j14577119003008_3_alg».proof.Proof.LibReadStretchRw
import proofs.«416324_j14577119003008_3_alg».proof.Proof.GlueMask

set_option maxRecDepth 16384

noncomputable section

namespace Cert.KernelIdeal.Glue

open Cert.KernelIdeal Cert.KernelIdeal.Gen
open Idealize.ShloMosaic Idealize.ShloMosaic.TcCoe Idealize.ShloMosaic.StableHlo
open Idealize.ShloMosaic.ValueIdx

def takeRows (x0 : FVec Ideal S50000x48 .f32) (x3 : IVec S2x800000 32) : FVec Ideal S800000x48 .f32 :=
  Host.gather gather_S50000x48_S800000x1_S800000x48_1_0_n_n_0_1_148 x0
    (broadcastInDim S800000x1 ![0] bcast_S800000_S800000x1_0
      (select
        (cmpi .slt
          (shapeCast _ (extractStridedSlice S1x800000 ![0, 0] x3 slices_S2x800000_S1x800000_0_0) shapeCasts_S1x800000_S800000)
          (broadcastInDim S800000 ![] bcast_S_S800000 (constantI S_ 32 0#32)))
        (addi
          (shapeCast _ (extractStridedSlice S1x800000 ![0, 0] x3 slices_S2x800000_S1x800000_0_0) shapeCasts_S1x800000_S800000)
          (broadcastInDim S800000 ![] bcast_S_S800000 (constantI S_ 32 50000#32)))
        (shapeCast _ (extractStridedSlice S1x800000 ![0, 0] x3 slices_S2x800000_S1x800000_0_0) shapeCasts_S1x800000_S800000)))

def takeCols (x0 : FVec Ideal S50000x48 .f32) (x3 : IVec S2x800000 32) : FVec Ideal S800000x48 .f32 :=
  Host.gather gather_S50000x48_S800000x1_S800000x48_1_0_n_n_0_1_148 x0
    (broadcastInDim S800000x1 ![0] bcast_S800000_S800000x1_0
      (select
        (cmpi .slt
          (shapeCast _ (extractStridedSlice S1x800000 ![1, 0] x3 slices_S2x800000_S1x800000_1_0) shapeCasts_S1x800000_S800000)
          (broadcastInDim S800000 ![] bcast_S_S800000 (constantI S_ 32 0#32)))
        (addi
          (shapeCast _ (extractStridedSlice S1x800000 ![1, 0] x3 slices_S2x800000_S1x800000_1_0) shapeCasts_S1x800000_S800000)
          (broadcastInDim S800000 ![] bcast_S_S800000 (constantI S_ 32 50000#32)))
        (shapeCast _ (extractStridedSlice S1x800000 ![1, 0] x3 slices_S2x800000_S1x800000_1_0) shapeCasts_S1x800000_S800000)))

def takeEdgeGlobals (x2 : FVec Ideal S128x32 .f32) (x5 : IVec S800000 32) : FVec Ideal S800000x32 .f32 :=
  Host.gather gather_S128x32_S800000x1_S800000x32_1_0_n_n_0_1_132 x2
    (broadcastInDim S800000x1 ![0] bcast_S800000_S800000x1_0
      (select (cmpi .slt x5 (broadcastInDim S800000 ![] bcast_S_S800000 (constantI S_ 32 0#32)))
        (addi x5 (broadcastInDim S800000 ![] bcast_S_S800000 (constantI S_ 32 128#32))) x5))

def takeNodeGlobals (x2 : FVec Ideal S128x32 .f32) (x4 : IVec S50000 32) : FVec Ideal S50000x32 .f32 :=
  Host.gather gather_S128x32_S50000x1_S50000x32_1_0_n_n_0_1_132 x2
    (broadcastInDim S50000x1 ![0] bcast_S50000_S50000x1_0
      (select (cmpi .slt x4 (broadcastInDim S50000 ![] bcast_S_S50000 (constantI S_ 32 0#32)))
        (addi x4 (broadcastInDim S50000 ![] bcast_S_S50000 (constantI S_ 32 128#32))) x4))

-- The moved index words and the row mask of a take over the 800000 edges.
abbrev wrapE (v : IVec S800000 32) (b : BitVec 32) : IVec S800000x1 32 :=
  Mask.wrapped bcast_S_S800000 bcast_S_S800000 bcast_S800000_S800000x1_0 v b
abbrev inTableE (w : IVec S800000x1 32) (n : ℕ) : IVec S800000 1 :=
  Mask.inTable bcast_S_S800000x1 bcast_S1_S1x1_1 bcast_S1x1_S800000x1_0_1 reducesTo_S800000x1_S800000_d1 h_S_ w n

-- A stretch read in two pieces.
theorem after_take_drop (k : ℕ) (ops : List (HloOp τ sig (Elt Ideal))) (W : Valuation τ sig (Elt Ideal)) :
    StableHlo.after ops W = StableHlo.after (ops.drop k) (StableHlo.after (ops.take k) W) := by
  rw [← StableHlo.after_append, List.take_append_drop]

variable (m : (ℓ : Loc nD τ sig) → Buf (Elt Ideal) ℓ) (c : Dev nD)

-- A reference no stretch so far writes holds its launch contents.
theorem V5_launch (r : Ref sig .tc) (h0 : r ∉ hostOps0_W := by decide) (h1 : r ∉ hostOps0_1_W := by decide)
    (h2 : r ∉ hostOps0_2_W := by decide) (h3 : r ∉ hostOps0_3_W := by decide) (h4 : r ∉ hostOps0_4_W := by decide) :
    V5 m c r = m ((c.tc : Thread nD τ).loc r) :=
  (V5_of m c r h4).trans <| (V4_of m c r h3).trans <| (V3_of m c r h2).trans <| (V2_of m c r h1).trans <|
    (V1_of m c r h0).trans rfl

namespace Takes

variable (W : Valuation τ sig (Elt Ideal))

-- The two rows of the edge list, each as a vector.
theorem read_edges : StableHlo.after hostOps0 W (Proc.devRef .tc main_v1)
      = shapeCast _ (extractStridedSlice S1x800000 ![0, 0] (W main_arg3) slices_S2x800000_S1x800000_0_0) shapeCasts_S1x800000_S800000
    ∧ StableHlo.after hostOps0 W (Proc.devRef .tc main_v3)
      = shapeCast _ (extractStridedSlice S1x800000 ![1, 0] (W main_arg3) slices_S2x800000_S1x800000_1_0) shapeCasts_S1x800000_S800000 := by
  unfold hostOps0
  constructor <;> (read_stretch; rfl)

theorem pre : StableHlo.after (List.take 18 hostOps0_1) W (Proc.devRef .tc main_arg0) = W main_arg0
    ∧ StableHlo.after (List.take 18 hostOps0_1) W (Proc.devRef .tc main_call0_v5) = wrapE (W main_v1) 50000#32
    ∧ StableHlo.after (List.take 18 hostOps0_1) W (Proc.devRef .tc main_call0_v12) = inTableE (wrapE (W main_v1) 50000#32) 49999 := by
  simp only [hostOps0_1, List.take_succ_cons, List.take_zero]
  refine ⟨?_, ?_, ?_⟩ <;> read_stretch <;> simp only [TRef.ofBuf, TRef.toBuf, cast_eq] <;> rfl

theorem post : StableHlo.after (List.drop 18 hostOps0_1) W (Proc.devRef .tc main_v4)
    = select (broadcastInDim S800000x48 ![0] bcast_S800000_S800000x48_0 (W main_call0_v12))
        (Host.gather gather_S50000x48_S800000x1_S800000x48_1_0_n_n_0_1_148 (W main_arg0) (W main_call0_v5))
        (broadcastInDim S800000x48 ![] bcast_S_S800000x48 (constant (F := Ideal) S_ .f32 0x7FC00000#32)) := by
  simp only [hostOps0_1, List.drop_succ_cons, List.drop_zero]
  read_stretch
  rfl

theorem narrowed : StableHlo.after hostOps0_2 W (Proc.devRef .tc main_v5)
    = truncf (F := Ideal) (s := S800000x48) (φ := .f32) .bf16 (W main_v4) bitsLt_bf16_f32 := by
  read_stretch

end Takes

theorem win_rows
    (hr3 : ∀ i, IntOp.cmpi .sge (m ((c : Thread nD τ).loc main_arg3) i) 0#32 = 1#1
      ∧ IntOp.cmpi .slt (m ((c : Thread nD τ).loc main_arg3) i) 50000#32 = 1#1)
    (i : S800000x48.Idx) :
    V7 m c main_v5 i = takeRows (m ((c : Thread nD τ).loc main_arg0)) (m ((c : Thread nD τ).loc main_arg3)) i := by
  have e1 : V1 m c main_v1 = _ := (Takes.read_edges (V0 m c)).1
  rw [V7_of m c main_v5 (by decide), V6_of m c main_v5 (by decide), V5_of m c main_v5 (by decide), V4_of m c main_v5 (by decide)]
  show StableHlo.after hostOps0_2 (V2 m c) (Proc.devRef .tc main_v5) i = _
  rw [Takes.narrowed, truncf_apply]
  show StableHlo.after hostOps0_1 (V1 m c) (Proc.devRef .tc main_v4) i = _
  rw [after_take_drop 18, Takes.post, (Takes.pre _).2.2, (Takes.pre _).2.1, (Takes.pre _).1,
    Mask.take_unmasked (n := 49999), e1, V1_of m c main_arg0 (by decide)]
  · rfl
  · decide
  · rw [e1]; exact fun p => hr3 _

end Cert.KernelIdeal.Glue

end
-- ==== Proof.GlueTakeCols.lean ====
import proofs.«416324_j14577119003008_3_alg».proof.Proof.GlueTakes

set_option maxRecDepth 16384

noncomputable section

namespace Cert.KernelIdeal.Glue

open Cert.KernelIdeal Cert.KernelIdeal.Gen
open Idealize.ShloMosaic Idealize.ShloMosaic.TcCoe Idealize.ShloMosaic.StableHlo
open Idealize.ShloMosaic.ValueIdx

namespace TakeCols

variable (W : Valuation τ sig (Elt Ideal))

theorem pre : StableHlo.after (List.take 18 hostOps0_3) W (Proc.devRef .tc main_arg0) = W main_arg0
    ∧ StableHlo.after (List.take 18 hostOps0_3) W (Proc.devRef .tc main_call1_v5) = wrapE (W main_v3) 50000#32
    ∧ StableHlo.after (List.take 18 hostOps0_3) W (Proc.devRef .tc main_call1_v12) = inTableE (wrapE (W main_v3) 50000#32) 49999 := by
  simp only [hostOps0_3, List.take_succ_cons, List.take_zero]
  refine ⟨?_, ?_, ?_⟩ <;> read_stretch <;> simp only [TRef.ofBuf, TRef.toBuf, cast_eq] <;> rfl

theorem post : StableHlo.after (List.drop 18 hostOps0_3) W (Proc.devRef .tc main_v6)
    = select (broadcastInDim S800000x48 ![0] bcast_S800000_S800000x48_0 (W main_call1_v12))
        (Host.gather gather_S50000x48_S800000x1_S800000x48_1_0_n_n_0_1_148 (W main_arg0) (W main_call1_v5))
        (broadcastInDim S800000x48 ![] bcast_S_S800000x48 (constant (F := Ideal) S_ .f32 0x7FC00000#32)) := by
  simp only [hostOps0_3, List.drop_succ_cons, List.drop_zero]
  read_stretch
  rfl

theorem narrowed : StableHlo.after hostOps0_4 W (Proc.devRef .tc main_v7)
    = truncf (F := Ideal) (s := S800000x48) (φ := .f32) .bf16 (W main_v6) bitsLt_bf16_f32 := by
  read_stretch

end TakeCols

variable (m : (ℓ : Loc nD τ sig) → Buf (Elt Ideal) ℓ) (c : Dev nD)

theorem win_cols
    (hr3 : ∀ i, IntOp.cmpi .sge (m ((c.tc : Thread nD τ).loc main_arg3) i) 0#32 = 1#1 ∧ IntOp.cmpi .slt (m ((c.tc : Thread nD τ).loc main_arg3) i) 50000#32 = 1#1)
    (i : S800000x48.Idx) :
    V7 m c main_v7 i = takeCols (m ((c.tc : Thread nD τ).loc main_arg0)) (m ((c.tc : Thread nD τ).loc main_arg3)) i := by
  have e3 : V3 m c main_v3 = _ :=
    (V3_of m c main_v3 (by decide)).trans ((V2_of m c main_v3 (by decide)).trans (Takes.read_edges (V0 m c)).2)
  rw [V7_of m c main_v7 (by decide), V6_of m c main_v7 (by decide)]
  show StableHlo.after hostOps0_4 (V4 m c) (Proc.devRef .tc main_v7) i = _
  rw [TakeCols.narrowed, truncf_apply]
  show StableHlo.after hostOps0_3 (V3 m c) (Proc.devRef .tc main_v6) i = _
  rw [after_take_drop 18, TakeCols.post, (TakeCols.pre _).2.2, (TakeCols.pre _).2.1, (TakeCols.pre _).1,
    Mask.take_unmasked (n := 49999), e3, V3_of m c main_arg0 (by decide), V2_of m c main_arg0 (by decide),
    V1_of m c main_arg0 (by decide)]
  · rfl
  · decide
  · rw [e3]; exact fun p => hr3 _

end Cert.KernelIdeal.Glue

end
-- ==== Proof.GlueTakeEdgeGlobals.lean ====
import proofs.«416324_j14577119003008_3_alg».proof.Proof.GlueTakes

set_option maxRecDepth 16384

noncomputable section

namespace Cert.KernelIdeal.Glue

open Cert.KernelIdeal Cert.KernelIdeal.Gen
open Idealize.ShloMosaic Idealize.ShloMosaic.TcCoe Idealize.ShloMosaic.StableHlo
open Idealize.ShloMosaic.ValueIdx

namespace TakeEdgeGlobals

variable (W : Valuation τ sig (Elt Ideal))

theorem pre : StableHlo.after (List.take 18 hostOps0_5) W (Proc.devRef .tc main_arg2) = W main_arg2
    ∧ StableHlo.after (List.take 18 hostOps0_5) W (Proc.devRef .tc main_call2_v5) = wrapE (W main_arg5) 128#32
    ∧ StableHlo.after (List.take 18 hostOps0_5) W (Proc.devRef .tc main_call2_v12) = inTableE (wrapE (W main_arg5) 128#32) 127 := by
  simp only [hostOps0_5, List.take_succ_cons, List.take_zero]
  refine ⟨?_, ?_, ?_⟩ <;> read_stretch <;> simp only [TRef.ofBuf, TRef.toBuf, cast_eq] <;> rfl

theorem post : StableHlo.after (List.drop 18 hostOps0_5) W (Proc.devRef .tc main_v8)
    = select (broadcastInDim S800000x32 ![0] bcast_S800000_S800000x32_0 (W main_call2_v12))
        (Host.gather gather_S128x32_S800000x1_S800000x32_1_0_n_n_0_1_132 (W main_arg2) (W main_call2_v5))
        (broadcastInDim S800000x32 ![] bcast_S_S800000x32 (constant (F := Ideal) S_ .f32 0x7FC00000#32)) := by
  simp only [hostOps0_5, List.drop_succ_cons, List.drop_zero]
  read_stretch
  rfl

theorem narrowed : StableHlo.after hostOps0_6 W (Proc.devRef .tc main_v9)
    = truncf (F := Ideal) (s := S800000x32) (φ := .f32) .bf16 (W main_v8) bitsLt_bf16_f32 := by
  read_stretch

end TakeEdgeGlobals

theorem win_edge_globals (m : (ℓ : Loc nD τ sig) → Buf (Elt Ideal) ℓ) (c : Dev nD)
    (hr5 : ∀ i, IntOp.cmpi .sge (m ((c.tc : Thread nD τ).loc main_arg5) i) 0#32 = 1#1
      ∧ IntOp.cmpi .slt (m ((c.tc : Thread nD τ).loc main_arg5) i) 128#32 = 1#1)
    (i : S800000x32.Idx) :
    V7 m c main_v9 i
      = takeEdgeGlobals (m ((c.tc : Thread nD τ).loc main_arg2)) (m ((c.tc : Thread nD τ).loc main_arg5)) i := by
  show StableHlo.after hostOps0_6 (V6 m c) (Proc.devRef .tc main_v9) i = _
  rw [TakeEdgeGlobals.narrowed, truncf_apply]
  show StableHlo.after hostOps0_5 (V5 m c) (Proc.devRef .tc main_v8) i = _
  rw [after_take_drop 18, TakeEdgeGlobals.post, (TakeEdgeGlobals.pre _).2.2, (TakeEdgeGlobals.pre _).2.1,
    (TakeEdgeGlobals.pre _).1, Mask.take_unmasked (n := 127), V5_launch m c main_arg2, V5_launch m c main_arg5]
  · rfl
  · decide
  · rw [V5_launch m c main_arg5]; exact hr5

end Cert.KernelIdeal.Glue

end
-- ==== Proof.GlueHost.lean ====
import proofs.«416324_j14577119003008_3_alg».proof.Proof.Gen.KernelIdeal.Regions
import proofs.«416324_j14577119003008_3_alg».proof.Proof.LibReadStretchRw
import Idealize.ShloMosaic.Lib.ValueLayout

noncomputable section

namespace Cert.KernelIdeal.Glue

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (c : Dev nD)

-- A buffer none of the first six stretches writes holds its launch contents where region 0 starts.
private theorem V6_launch (r : Ref sig .tc) (h0 : r ∉ hostOps0_W := by decide) (h1 : r ∉ hostOps0_1_W := by decide)
    (h2 : r ∉ hostOps0_2_W := by decide) (h3 : r ∉ hostOps0_3_W := by decide) (h4 : r ∉ hostOps0_4_W := by decide)
    (h5 : r ∉ hostOps0_5_W := by decide) : V6 m c r = m ((c : Thread nD τ).loc r) :=
  (V6_of m c r h5).trans <| (V5_of m c r h4).trans <| (V4_of m c r h3).trans <| (V3_of m c r h2).trans <|
    (V2_of m c r h1).trans (V1_of m c r h0)

-- The last stretch before region 0 only casts (the identity on reals) and adds a unit axis.
private theorem read0_6 (W : Valuation τ sig (Elt Ideal)) :
    after hostOps0_6 W main_v10 = W main_arg1 ∧ after hostOps0_6 W main_v11 = W main_arg6 ∧
    after hostOps0_6 W main_v12 = W main_arg8 ∧
    (∀ a, after hostOps0_6 W main_v13 (ix2 0 a) = W main_arg7 (ix1 a)) ∧
    (∀ b, after hostOps0_6 W main_v14 (ix2 0 b) = W main_arg9 (ix1 b)) ∧
    (∀ b, after hostOps0_6 W main_v15 (ix2 0 b) = W main_arg10 (ix1 b)) ∧
    ∀ b, after hostOps0_6 W main_v16 (ix2 0 b) = W main_arg11 (ix1 b) := by
  and_intros <;> intros <;> after_results <;> first | rfl | exact shapeCast_a_1a_apply ..

theorem win0_v10 (i : S800000x48.Idx) :
    V7 m c main_v10 i = m ((c : Thread nD τ).loc main_arg1) i :=
  congrFun ((read0_6 _).1.trans (V6_launch m c main_arg1)) i

theorem win0_v11 (i : S176x64.Idx) :
    V7 m c main_v11 i = m ((c : Thread nD τ).loc main_arg6) i :=
  congrFun ((read0_6 _).2.1.trans (V6_launch m c main_arg6)) i

theorem win0_v12 (i : S64x48.Idx) :
    V7 m c main_v12 i = m ((c : Thread nD τ).loc main_arg8) i :=
  congrFun ((read0_6 _).2.2.1.trans (V6_launch m c main_arg8)) i

theorem win0_v13 (a : Fin 64) :
    V7 m c main_v13 (ix2 0 a) = m ((c : Thread nD τ).loc main_arg7) (ix1 a) :=
  ((read0_6 _).2.2.2.1 a).trans (congrFun (V6_launch m c main_arg7) _)

theorem win0_v14 (b : Fin 48) :
    V7 m c main_v14 (ix2 0 b) = m ((c : Thread nD τ).loc main_arg9) (ix1 b) :=
  ((read0_6 _).2.2.2.2.1 b).trans (congrFun (V6_launch m c main_arg9) _)

theorem win0_v15 (b : Fin 48) :
    V7 m c main_v15 (ix2 0 b) = m ((c : Thread nD τ).loc main_arg10) (ix1 b) :=
  ((read0_6 _).2.2.2.2.2.1 b).trans (congrFun (V6_launch m c main_arg10) _)

theorem win0_v16 (b : Fin 48) :
    V7 m c main_v16 (ix2 0 b) = m ((c : Thread nD τ).loc main_arg11) (ix1 b) :=
  ((read0_6 _).2.2.2.2.2.2 b).trans (congrFun (V6_launch m c main_arg11) _)

end Cert.KernelIdeal.Glue

end
-- ==== Proof.RefRow.lean ====
import proofs.«416324_j14577119003008_3_alg».proof.Proof.Spec
import Idealize.ShloMosaic.Lib.IdealHost
import Idealize.ShloMosaic.Lib.StackMember
import Idealize.ShloMosaic.Lib.Pipeline.Value

noncomputable section

namespace Cert.ReferenceIdeal.RefDirect

open Idealize.ShloMosaic Idealize.ShloMosaic.ValueIdx Cert
open scoped BigOperators

-- One stage of the whole-array program, two layers and the row normalisation, read at an element: stated once over the extents `m k h d`, the same for all three stages.

variable {α : Type} {m k h d : ℕ}

-- A row vector laid in every row reads, at `(p, a)`, its entry `a`.
theorem rowBcast_apply (b : (⟨1, ![h]⟩ : Shape).Idx → α) (h1 : (⟨1, ![h]⟩ : Shape).BroadcastsInDim ⟨2, ![1, h]⟩ (![1] : Fin 1 → Fin 2))
    (h2 : (⟨2, ![1, h]⟩ : Shape).BroadcastsInDim ⟨2, ![m, h]⟩ (![0, 1] : Fin 2 → Fin 2)) (p : Fin m) (a : Fin h) :
    broadcastInDim ⟨2, ![m, h]⟩ ![0, 1] h2 (broadcastInDim ⟨2, ![1, h]⟩ ![1] h1 b) (ix2 p a) = b (ix1 a) := by
  refine (broadcastInDim_apply _ h2 _ (ix2 p a) (ix2 (0 : Fin 1) a) fun ax => ?_).trans
    (broadcastInDim_apply _ h1 b (ix2 (0 : Fin 1) a) (ix1 a) fun ax => ?_)
  · match ax with
    | ⟨0, _⟩ => rfl
    | ⟨1, _⟩ =>
      show a.val = if h = 1 then 0 else a.val
      split
      · omega
      · rfl
  · match ax with
    | ⟨0, _⟩ =>
      show a.val = if h = 1 then 0 else a.val
      split
      · omega
      · rfl

-- A vector stood up as a column reads, at `(p, u)`, its entry `p`.
theorem colBcast_apply (v : (⟨1, ![m]⟩ : Shape).Idx → α) (hc : (⟨1, ![m]⟩ : Shape).BroadcastsInDim ⟨2, ![m, 1]⟩ (![0] : Fin 1 → Fin 2))
    (p : Fin m) (u : Fin 1) : broadcastInDim ⟨2, ![m, 1]⟩ ![0] hc v (ix2 p u) = v (ix1 p) := by
  refine broadcastInDim_apply _ hc v (ix2 p u) (ix1 p) fun ax => ?_
  match ax with
  | ⟨0, _⟩ =>
    show p.val = if m = 1 then 0 else p.val
    split
    · omega
    · rfl

-- A column spread over the lanes reads, in every lane, the column at that row.
theorem laneBcast_apply (v : (⟨2, ![m, 1]⟩ : Shape).Idx → α) (hb : (⟨2, ![m, 1]⟩ : Shape).BroadcastsInDim ⟨2, ![m, d]⟩ (![0, 1] : Fin 2 → Fin 2))
    (p : Fin m) (q : Fin d) : broadcastInDim ⟨2, ![m, d]⟩ ![0, 1] hb v (ix2 p q) = v (ix2 p (0 : Fin 1)) := by
  refine broadcastInDim_apply _ hb v (ix2 p q) (ix2 p (0 : Fin 1)) fun ax => ?_
  match ax with
  | ⟨0, _⟩ =>
    show p.val = if m = 1 then 0 else p.val
    split
    · omega
    · rfl
  | ⟨1, _⟩ => rfl

-- A constant spread over any shape reads the constant.
theorem constBcast_apply {T : Shape} (c : BitVec 32) (hz : (⟨0, ![]⟩ : Shape).BroadcastsInDim T ![]) (j : T.Idx) :
    broadcastInDim T ![] hz (constant (F := Ideal) ⟨0, ![]⟩ .f32 c) j = Ideal.ofBits .f32 c :=
  broadcastInDim_scalar_apply hz _ j

-- The sum along a row, from zero.
theorem rowSum_apply (X : FVec Ideal ⟨2, ![m, d]⟩ .f32) (hr : (⟨2, ![m, d]⟩ : Shape).ReducesTo [1] ⟨1, ![m]⟩) (hu : 0 < (⟨0, ![]⟩ : Shape).numel)
    (hr' : (⟨2, ![m, d]⟩ : Shape).Reduces [1] ⟨1, ![m]⟩) (p : Fin m) :
    Host.reduceAdd X (constant ⟨0, ![]⟩ .f32 0x00000000#32) hr hu (ix1 p) = ∑ b : Fin d, X (ix2 p b) := by
  refine (hostReduceAdd_apply X _ hr hu (ix1 p)).trans ((Ideal.hostReduceAdd_single hr hr' X _ (ix1 p)).trans ?_)
  rw [constant_apply, Ideal.ofBits_zero_f32, zero_add]
  exact Finset.sum_congr rfl fun b _ => congrArg X (funext fun a => by
    match a with
    | ⟨0, _⟩ => rfl
    | ⟨1, _⟩ => rfl)

section Layer

variable (x : FVec Ideal ⟨2, ![m, k]⟩ .f32) (w : FVec Ideal ⟨2, ![k, h]⟩ .f32) (b : FVec Ideal ⟨1, ![h]⟩ .f32)
  (h1 : (⟨1, ![h]⟩ : Shape).BroadcastsInDim ⟨2, ![1, h]⟩ (![1] : Fin 1 → Fin 2))
  (h2 : (⟨2, ![1, h]⟩ : Shape).BroadcastsInDim ⟨2, ![m, h]⟩ (![0, 1] : Fin 2 → Fin 2))
  (hz : (⟨0, ![]⟩ : Shape).BroadcastsInDim ⟨2, ![m, h]⟩ ![])

-- One layer: a product plus a bias row, positive part.
def layer : FVec Ideal ⟨2, ![m, h]⟩ .f32 :=
  maximumf (addf (Host.dotGeneral (DotDims.plain m k h) none x w) (broadcastInDim ⟨2, ![m, h]⟩ ![0, 1] h2 (broadcastInDim ⟨2, ![1, h]⟩ ![1] h1 b)))
    (broadcastInDim ⟨2, ![m, h]⟩ ![] hz (constant ⟨0, ![]⟩ .f32 0x00000000#32))

theorem layer_apply (p : Fin m) (a : Fin h) :
    layer x w b h1 h2 hz (ix2 p a) = Mlp.hidden (fun c => x (ix2 p c)) (fun c a => w (ix2 c a)) (fun a => b (ix1 a)) a := by
  unfold layer
  rw [maximumf_apply, addf_apply, StackMember.dotGeneral_plain_apply, rowBcast_apply, constBcast_apply, Ideal.ofBits_zero_f32]
  rfl

end Layer

section Norm

variable (n e : BitVec 32) (X : FVec Ideal ⟨2, ![m, d]⟩ .f32) (g be : FVec Ideal ⟨1, ![d]⟩ .f32)
  (hr : (⟨2, ![m, d]⟩ : Shape).ReducesTo [1] ⟨1, ![m]⟩) (hu : 0 < (⟨0, ![]⟩ : Shape).numel)
  (hc : (⟨1, ![m]⟩ : Shape).BroadcastsInDim ⟨2, ![m, 1]⟩ (![0] : Fin 1 → Fin 2))
  (hn : (⟨0, ![]⟩ : Shape).BroadcastsInDim ⟨2, ![m, 1]⟩ ![])
  (hb : (⟨2, ![m, 1]⟩ : Shape).BroadcastsInDim ⟨2, ![m, d]⟩ (![0, 1] : Fin 2 → Fin 2))
  (g1 : (⟨1, ![d]⟩ : Shape).BroadcastsInDim ⟨2, ![1, d]⟩ (![1] : Fin 1 → Fin 2))
  (g2 : (⟨2, ![1, d]⟩ : Shape).BroadcastsInDim ⟨2, ![m, d]⟩ (![0, 1] : Fin 2 → Fin 2))

-- A block's row sums over the float `n`, as a column.
def colDiv : FVec Ideal ⟨2, ![m, 1]⟩ .f32 :=
  Host.divf (broadcastInDim ⟨2, ![m, 1]⟩ ![0] hc (Host.reduceAdd X (constant ⟨0, ![]⟩ .f32 0x00000000#32) hr hu))
    (broadcastInDim ⟨2, ![m, 1]⟩ ![] hn (constant ⟨0, ![]⟩ .f32 n))

-- A block less its rows' means.
def centred : FVec Ideal ⟨2, ![m, d]⟩ .f32 := subf X (broadcastInDim ⟨2, ![m, d]⟩ ![0, 1] hb (colDiv n X hr hu hc hn))

-- The normalisation: the centred block over the root of its rows' spread plus `e`, scaled and shifted by two rows.
def normed : FVec Ideal ⟨2, ![m, d]⟩ .f32 :=
  addf (mulf (mulf (centred n X hr hu hc hn hb)
      (broadcastInDim ⟨2, ![m, d]⟩ ![0, 1] hb (Host.rsqrt (addf (colDiv n (mulf (centred n X hr hu hc hn hb) (centred n X hr hu hc hn hb)) hr hu hc hn)
        (broadcastInDim ⟨2, ![m, 1]⟩ ![] hn (constant ⟨0, ![]⟩ .f32 e))))))
    (broadcastInDim ⟨2, ![m, d]⟩ ![0, 1] g2 (broadcastInDim ⟨2, ![1, d]⟩ ![1] g1 g)))
    (broadcastInDim ⟨2, ![m, d]⟩ ![0, 1] g2 (broadcastInDim ⟨2, ![1, d]⟩ ![1] g1 be))

variable (hr' : (⟨2, ![m, d]⟩ : Shape).Reduces [1] ⟨1, ![m]⟩)
include hr'

theorem colDiv_apply (p : Fin m) (u : Fin 1) : colDiv n X hr hu hc hn (ix2 p u) = Mlp.mean (Ideal.ofBits .f32 n) fun b => X (ix2 p b) := by
  unfold colDiv
  rw [hostDivf_apply, colBcast_apply, rowSum_apply X hr hu hr', constBcast_apply]
  rfl

theorem centred_apply (p : Fin m) (q : Fin d) :
    centred n X hr hu hc hn hb (ix2 p q) = X (ix2 p q) - Mlp.mean (Ideal.ofBits .f32 n) fun b => X (ix2 p b) := by
  unfold centred
  rw [subf_apply, laneBcast_apply, colDiv_apply n X hr hu hc hn hr']

theorem normed_apply (p : Fin m) (q : Fin d) :
    normed n e X g be hr hu hc hn hb g1 g2 (ix2 p q)
      = Mlp.norm (Ideal.ofBits .f32 n) (Ideal.ofBits .f32 e) (fun b => X (ix2 p b)) (fun b => g (ix1 b)) (fun b => be (ix1 b)) q := by
  unfold normed
  rw [addf_apply, mulf_apply, mulf_apply, centred_apply n X hr hu hc hn hb hr', laneBcast_apply, rowBcast_apply, rowBcast_apply]
  show _ * Ideal.rsqrt (addf (F := Ideal) (φ := .f32) _ _ _) * _ + _ = _
  rw [addf_apply, colDiv_apply n _ hr hu hc hn hr', constBcast_apply]
  simp only [mulf_apply, centred_apply n X hr hu hc hn hb hr']
  rfl

end Norm

-- The whole row function: two layers, then the normalisation.
theorem row_apply (n e : BitVec 32) (x : FVec Ideal ⟨2, ![m, k]⟩ .f32) (w1 : FVec Ideal ⟨2, ![k, h]⟩ .f32) (b1 : FVec Ideal ⟨1, ![h]⟩ .f32)
    (w2 : FVec Ideal ⟨2, ![h, d]⟩ .f32) (b2 g be : FVec Ideal ⟨1, ![d]⟩ .f32) {a1 a2 az c1 c2 cz hr hu hc hn hb g1 g2}
    (hr' : (⟨2, ![m, d]⟩ : Shape).Reduces [1] ⟨1, ![m]⟩) (p : Fin m) (q : Fin d) :
    normed n e (layer (layer x w1 b1 a1 a2 az) w2 b2 c1 c2 cz) g be hr hu hc hn hb g1 g2 (ix2 p q)
      = Mlp.row (Ideal.ofBits .f32 n) (Ideal.ofBits .f32 e) (fun k => x (ix2 p k)) (fun k a => w1 (ix2 k a)) (fun a => b1 (ix1 a))
          (fun a b => w2 (ix2 a b)) (fun b => b2 (ix1 b)) (fun b => g (ix1 b)) (fun b => be (ix1 b)) q := by
  rw [normed_apply n e _ g be hr hu hc hn hb g1 g2 hr']
  refine congrArg (fun H => Mlp.norm _ _ H _ _ q) (funext fun b => (layer_apply _ w2 b2 c1 c2 cz p b).trans ?_)
  exact congrArg (fun H => Mlp.hidden H _ _ b) (funext fun a => layer_apply x w1 b1 a1 a2 az p a)

end Cert.ReferenceIdeal.RefDirect

end
-- ==== Proof.RefDirectEdge.lean ====
import proofs.«416324_j14577119003008_3_alg».proof.Proof.RefRead
import proofs.«416324_j14577119003008_3_alg».proof.Proof.RefRow
import proofs.«416324_j14577119003008_3_alg».proof.Proof.ValueRow

noncomputable section

namespace Cert.ReferenceIdeal.RefDirect

open Cert.ReferenceIdeal Cert.ReferenceIdeal.Gen Idealize.ShloMosaic Idealize.ShloMosaic.ValueIdx Cert

namespace Edge

-- The four pieces laid side by side, at `(p, k)`: the piece whose span of columns holds `k`, at the column counted from that piece's start.
theorem join_apply (x0 : FVec Ideal S50000x48 .f32) (x1 : FVec Ideal S800000x48 .f32) (x2 : FVec Ideal S128x32 .f32) (x3 : IVec S2x800000 32) (x5 : IVec S800000 32) (p : Fin 800000) (k : Fin 176) :
    Read.val_main_v25 (F := Ideal) x0 x1 x2 x3 x5 (ix2 p k)
      = Mlp.cat4 (fun c => Read.val_main_v10 (F := Ideal) x0 x3 (ix2 p c)) (fun c => Read.val_main_v17 (F := Ideal) x0 x3 (ix2 p c))
          (fun c => x1 (ix2 p c)) (fun c => Read.val_main_v24 (F := Ideal) x2 x5 (ix2 p c)) k := by
  unfold Read.val_main_v25 Mlp.cat4
  split
  · exact Mlp.Block.concat_cols_apply _ _ p k 0 _ rfl 0 rfl _ (Nat.zero_add _)
  split
  · exact Mlp.Block.concat_cols_apply _ _ p k 1 _ rfl 48 rfl _ (by show 48 + (k.val - 48) = k.val; omega)
  split
  · exact Mlp.Block.concat_cols_apply _ _ p k 2 _ rfl 96 rfl _ (by show 96 + (k.val - 96) = k.val; omega)
  · exact Mlp.Block.concat_cols_apply _ _ p k 3 _ rfl 144 rfl _ (by show 144 + (k.val - 144) = k.val; omega)

end Edge

-- The edge stage at `(p, q)` is the row function of row `p` of the four-piece input; the joined input stays folded.
theorem ref_edge (x0 : FVec Ideal S50000x48 .f32) (x1 : FVec Ideal S800000x48 .f32) (x2 : FVec Ideal S128x32 .f32) (x3 : IVec S2x800000 32) (x5 : IVec S800000 32)
    (x6 : FVec Ideal S176x64 .f32) (x7 : FVec Ideal S64 .f32) (x8 : FVec Ideal S64x48 .f32) (x9 x10 x11 : FVec Ideal S48 .f32) (p : Fin 800000) (q : Fin 48) :
    Read.val_main_v59 (F := Ideal) x0 x1 x2 x3 x5 x6 x7 x8 x9 x10 x11 (ix2 p q) = Mlp.row Mlp.n48 Mlp.eps
      (Mlp.cat4 (fun k => Read.val_main_v10 (F := Ideal) x0 x3 (ix2 p k)) (fun k => Read.val_main_v17 (F := Ideal) x0 x3 (ix2 p k)) (fun k => x1 (ix2 p k)) (fun k => Read.val_main_v24 (F := Ideal) x2 x5 (ix2 p k)))
      (fun k a => x6 (ix2 k a)) (fun a => x7 (ix1 a)) (fun a b => x8 (ix2 a b)) (fun b => x9 (ix1 b)) (fun b => x10 (ix1 b)) (fun b => x11 (ix1 b)) q :=
  (row_apply 0x42400000#32 0x3727C5AC#32 (Read.val_main_v25 (F := Ideal) x0 x1 x2 x3 x5) x6 x7 x8 x9 x10 x11 (by decide) p q).trans
    (congrArg (fun c => Mlp.row Mlp.n48 Mlp.eps c _ _ _ _ _ _ q) (funext (Edge.join_apply x0 x1 x2 x3 x5 p)))

end Cert.ReferenceIdeal.RefDirect

end
-- ==== Proof.BridgeEdge.lean ====
import proofs.«416324_j14577119003008_3_alg».proof.Proof.BridgeBase
import proofs.«416324_j14577119003008_3_alg».proof.Proof.Run
import proofs.«416324_j14577119003008_3_alg».proof.Proof.ArrayEdge
import proofs.«416324_j14577119003008_3_alg».proof.Proof.GlueTakes
import proofs.«416324_j14577119003008_3_alg».proof.Proof.GlueTakeCols
import proofs.«416324_j14577119003008_3_alg».proof.Proof.GlueTakeEdgeGlobals
import proofs.«416324_j14577119003008_3_alg».proof.Proof.GlueHost
import proofs.«416324_j14577119003008_3_alg».proof.Proof.RefDirectEdge

noncomputable section

namespace Cert.Proof.Bridge

open Cert.KernelIdeal Cert.KernelIdeal.Gen Cert.KernelIdeal.Glue Cert.ReferenceIdeal.Read Cert.ReferenceIdeal.RefDirect
open Idealize.ShloMosaic Idealize.ShloMosaic.TcCoe Idealize.ShloMosaic.ValueIdx Idealize.SL.Sem Cert

variable (m : (ℓ : Loc nD τ sig) → Buf (Elt Ideal) ℓ) (c : Dev nD)

/-- Each row gather before the edge region is made by the same operations in both programs. -/
theorem takeRows_eq (x0 : FVec Ideal S50000x48 .f32) (x3 : IVec S2x800000 32) :
    takeRows x0 x3 = val_main_v10 (F := Ideal) x0 x3 := by
  unfold takeRows val_main_v10 val_main_v9 val_main_v8 val_main_v7 val_main_v6 val_main_v5 val_main_v4 val_main_v1 val_main_v0
    val_main_c val_main_c_0
  rfl

theorem takeCols_eq (x0 : FVec Ideal S50000x48 .f32) (x3 : IVec S2x800000 32) :
    takeCols x0 x3 = val_main_v17 (F := Ideal) x0 x3 := by
  unfold takeCols val_main_v17 val_main_v16 val_main_v15 val_main_v14 val_main_v13 val_main_v12 val_main_v11 val_main_v3 val_main_v2
    val_main_c_1 val_main_c_2
  rfl

theorem takeEdgeGlobals_eq (x2 : FVec Ideal S128x32 .f32) (x5 : IVec S800000 32) :
    takeEdgeGlobals x2 x5 = val_main_v24 (F := Ideal) x2 x5 := by
  unfold takeEdgeGlobals val_main_v24 val_main_v23 val_main_v22 val_main_v21 val_main_v20 val_main_v19 val_main_v18 val_main_c_3
    val_main_c_4
  rfl

/-- The edge region's array is the reference's edge stage: one row function, of rows the range facts make equal. -/
theorem edge_eq (h : InRange m c) : (Frame.dat0 (Frame.VR7 m) c).arrAt 10 cfg0.N = refEdge m c := by
  funext j
  obtain ⟨p, q, rfl⟩ : ∃ (p : Fin 800000) (q : Fin 48), j = ix2 p q := ⟨j 0, j 1, eq_ix2 j⟩
  refine (Val.edge_array (Frame.VR7 m) c p q).trans (Eq.trans ?_ (ref_edge ..).symm)
  refine row_congr _ _ (cat4_congr ?_ ?_ ?_ ?_) ?_ ?_ ?_ ?_ ?_ ?_ q
  · exact funext fun k => (win_rows m c h.edges (ix2 p k)).trans (congrFun (takeRows_eq _ _) _)
  · exact funext fun k => (win_cols m c h.edges (ix2 p k)).trans (congrFun (takeCols_eq _ _) _)
  · exact funext fun k => win0_v10 m c (ix2 p k)
  · exact funext fun k => (win_edge_globals m c h.edgeGlobals (ix2 p k)).trans (congrFun (takeEdgeGlobals_eq _ _) _)
  · exact funext fun k => funext fun a => win0_v11 m c (ix2 k a)
  · exact funext fun a => win0_v13 m c a
  · exact funext fun a => funext fun b => win0_v12 m c (ix2 a b)
  · exact funext fun b => win0_v14 m c b
  · exact funext fun b => win0_v15 m c b
  · exact funext fun b => win0_v16 m c b

end Cert.Proof.Bridge

end
-- ==== Proof.ValueNode.lean ====
import proofs.«416324_j14577119003008_3_alg».proof.Proof.Gen.KernelIdeal.Skeleton
import proofs.«416324_j14577119003008_3_alg».proof.Proof.ValueRow

namespace Cert.KernelIdeal.Val

open Cert.KernelIdeal Cert.KernelIdeal.Gen Idealize.ShloMosaic Idealize.ShloMosaic.ValueIdx Cert

-- Three blocks joined along the columns read, at a row, as `cat3` of that row of each.
theorem row_pieces_apply (v0 v2 : FVec Ideal S10000x48 .bf16) (v4 : FVec Ideal S10000x32 .bf16) (p : Fin 10000) (k : Fin 128) :
    concatenate S10000x128 1 [⟨S10000x48, v0⟩, ⟨S10000x48, v2⟩, ⟨S10000x32, v4⟩] concatenates_S10000x48_S10000x48_S10000x32_S10000x128_d1 (ix2 p k)
      = Mlp.cat3 (fun k => v0 (ix2 p k)) (fun k => v2 (ix2 p k)) (fun k => v4 (ix2 p k)) k := by
  unfold Mlp.cat3
  split
  · exact Mlp.Block.concat_cols_apply _ _ p k 0 v0 rfl 0 rfl _ (Nat.zero_add _)
  split
  · exact Mlp.Block.concat_cols_apply _ _ p k 1 v2 rfl 48 rfl _ (by show 48 + (k.val - 48) = k.val; omega)
  · exact Mlp.Block.concat_cols_apply _ _ p k 2 v4 rfl 96 rfl _ (by show 96 + (k.val - 96) = k.val; omega)

-- The body's value at an element is the row function of that row of its operands: the general statement at these sizes; the narrowing between the layers keeps every value.
theorem node_payload_apply (v0 v2 : Vec Ideal S10000x48 .bf16) (v4 : Vec Ideal S10000x32 .bf16) (v7 : Vec Ideal S128x64 .bf16) (v10 : Vec Ideal S1x64 .f32) (v17 : Vec Ideal S64x48 .bf16) (v20 v44 v48 : Vec Ideal S1x48 .f32) (p : Fin 10000) (q : Fin 48) :
    k1_pay1 (F := Ideal) (k1_pay2 v0 v2 v4 v7 v10 v17 v20) (k1_pay3 v0 v2 v4 v7 v10 v17 v20) (k1_pay4 v0 v2 v4 v7 v10 v17 v20) v44 v48 (ix2 p q)
      = Mlp.row Mlp.n48 Mlp.eps
          (Mlp.cat3 (fun k => v0 (ix2 p k)) (fun k => v2 (ix2 p k)) (fun k => v4 (ix2 p k)))
          (fun k a => v7 (ix2 k a)) (fun a => v10 (ix2 0 a)) (fun a b => v17 (ix2 a b)) (fun b => v20 (ix2 0 b)) (fun b => v44 (ix2 0 b)) (fun b => v48 (ix2 0 b)) q := by
  refine (Mlp.Block.row_apply 0x42400000#32 0x3727C5AC#32 _ _ _ (fun Y => truncf .bf16 Y bitsLt_bf16_f32) (fun _ _ => rfl) _ _ _ _ _ _ _ _ _ _ p q).trans ?_
  simp only [shapeCast_self, row_pieces_apply]

end Cert.KernelIdeal.Val
-- ==== Proof.ArrayNode.lean ====
import proofs.«416324_j14577119003008_3_alg».proof.Proof.FrameNode
import proofs.«416324_j14577119003008_3_alg».proof.Proof.ValueNode
import proofs.«416324_j14577119003008_3_alg».proof.Proof.BlockElement

noncomputable section

namespace Cert.KernelIdeal.Val

open Cert.KernelIdeal Cert.KernelIdeal.Gen Cert.KernelIdeal.Frame Idealize.ShloMosaic Idealize.ShloMosaic.TcCoe
open Idealize.ShloMosaic.ValueIdx Cert

variable (V : (c : Dev nD) → (b : Ref sig .tc) → Buf (Elt Ideal) ((c : Thread nD τ).loc b))

theorem node_index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (∀ a, win1_3.index t a = 0) ∧ (∀ a, win1_4.index t a = 0) ∧ (∀ a, win1_5.index t a = 0)
    ∧ (∀ a, win1_6.index t a = 0) ∧ (∀ a, win1_7.index t a = 0) ∧ (∀ a, win1_8.index t a = 0)
    ∧ win1_9.index t (0 : Fin 2) = t.val ∧ win1_9.index t (1 : Fin 2) = 0 :=
  (by decide +kernel : ∀ t : Fin grid1.N, _)

abbrev nodeOut (c : Dev nD) : Vec Ideal S50000x48 .f32 := fun i =>
  Mlp.row Mlp.n48 Mlp.eps
    (Mlp.cat3 (fun k => V c main_v23 (ix2 (i 0) k)) (fun k => V c main_v24 (ix2 (i 0) k)) (fun k => V c main_v22 (ix2 (i 0) k)))
    (fun k a => V c main_v25 (ix2 k a)) (fun a => V c main_v27 (ix2 0 a)) (fun a b => V c main_v26 (ix2 a b))
    (fun b => V c main_v28 (ix2 0 b)) (fun b => V c main_v29 (ix2 0 b)) (fun b => V c main_v30 (ix2 0 b)) (i 1)

theorem node_flushed (c : Dev nD) (t : Fin cfg1.N) :
    (dat1 V c).flushed 9 t = ((cfg1.win 9).blk t).view.read (Elt Ideal) (nodeOut V c) := by
  obtain ⟨⟨a0, a1⟩, ⟨b0, b1⟩, ⟨c0, c1⟩, e3, e4, e5, e6, e7, e8, o0, o1⟩ := node_index_facts t
  show (cfg1.win 9).cut (grid1.coords t) ((dat1 V c).after 9 t) = _
  rw [after1_9]
  unfold out1_9
  rw [View.canon_unit_zero vec2_zero]
  simp only [ld_origin2]
  funext j
  obtain ⟨p, q, rfl⟩ : ∃ p q, j = ix2 p q := ⟨_, _, eq_ix2 j⟩
  refine (node_payload_apply _ _ _ _ _ _ _ _ _ p q).trans ?_
  show _ = nodeOut V c ((win1_9.rect t).emb (ix2 p q))
  have hv := win1_9.rect_emb_val t (ix2 p q)
  generalize (win1_9.rect t).emb (ix2 p q) = i at hv
  have h0 : t.val * 10000 + p.val = (i 0).val := by rw [hv (0 : Fin 2), o0]; rfl
  obtain rfl : q = i 1 := Fin.ext (by rw [hv (1 : Fin 2), o1, Nat.zero_mul, Nat.zero_add])
  have r0 (k) : iblk1 V c 0 t (ix2 p k) = V c main_v23 (ix2 (i 0) k) :=
    apply_rect_emb win1_0 t (V c main_v23) (ix2 p k) (ix2 (i 0) k) (Fin.forall_fin_two.mpr ⟨by rw [a0]; exact h0, by rw [a1, Nat.zero_mul, Nat.zero_add]⟩)
  have r1 (k) : iblk1 V c 1 t (ix2 p k) = V c main_v24 (ix2 (i 0) k) :=
    apply_rect_emb win1_1 t (V c main_v24) (ix2 p k) (ix2 (i 0) k) (Fin.forall_fin_two.mpr ⟨by rw [b0]; exact h0, by rw [b1, Nat.zero_mul, Nat.zero_add]⟩)
  have r2 (k) : iblk1 V c 2 t (ix2 p k) = V c main_v22 (ix2 (i 0) k) :=
    apply_rect_emb win1_2 t (V c main_v22) (ix2 p k) (ix2 (i 0) k) (Fin.forall_fin_two.mpr ⟨by rw [c0]; exact h0, by rw [c1, Nat.zero_mul, Nat.zero_add]⟩)
  rw [show iblk1 V c 3 t = V c main_v25 from funext fun y => apply_rect_emb_zero win1_3 t e3 (V c main_v25) y y fun _ => rfl,
    show iblk1 V c 4 t = V c main_v27 from funext fun y => apply_rect_emb_zero win1_4 t e4 (V c main_v27) y y fun _ => rfl,
    show iblk1 V c 5 t = V c main_v26 from funext fun y => apply_rect_emb_zero win1_5 t e5 (V c main_v26) y y fun _ => rfl,
    show iblk1 V c 6 t = V c main_v28 from funext fun y => apply_rect_emb_zero win1_6 t e6 (V c main_v28) y y fun _ => rfl,
    show iblk1 V c 7 t = V c main_v29 from funext fun y => apply_rect_emb_zero win1_7 t e7 (V c main_v29) y y fun _ => rfl,
    show iblk1 V c 8 t = V c main_v30 from funext fun y => apply_rect_emb_zero win1_8 t e8 (V c main_v30) y y fun _ => rfl]
  simp only [r0, r1, r2]

theorem node_covered (i : S50000x48.Idx) :
    ∃ t : Fin cfg1.N, (cfg1.win 9).flush t = true ∧ i ∈ ((cfg1.win 9).blk t).view.set := by
  have ht : (i 0).val / 10000 < cfg1.N := by rw [show cfg1.N = 5 from N_1]; have : (i 0).val < 50000 := (i 0).isLt; omega
  obtain ⟨-, -, -, -, -, -, -, -, -, o0, o1⟩ := node_index_facts ⟨_, ht⟩
  refine ⟨⟨_, ht⟩, flush1_9 _, mem_slice_whole_unit main_v31 (Fin.forall_fin_two.mpr ⟨?_, ?_⟩)⟩
  · rw [o0]; exact ⟨Nat.div_mul_le_self _ _, Nat.lt_div_mul_add (by decide)⟩
  · rw [o1, Nat.zero_mul, Nat.zero_add]; exact ⟨Nat.zero_le _, (i 1).isLt⟩

theorem node_array (c : Dev nD) (p : Fin 50000) (q : Fin 48) :
    (Frame.dat1 V c).arrAt 9 cfg1.N (ix2 p q) = Mlp.row Mlp.n48 Mlp.eps
      (Mlp.cat3 (fun k => V c main_v23 (ix2 p k)) (fun k => V c main_v24 (ix2 p k)) (fun k => V c main_v22 (ix2 p k)))
      (fun k a => V c main_v25 (ix2 k a)) (fun a => V c main_v27 (ix2 0 a)) (fun a b => V c main_v26 (ix2 a b))
      (fun b => V c main_v28 (ix2 0 b)) (fun b => V c main_v29 (ix2 0 b)) (fun b => V c main_v30 (ix2 0 b)) q :=
  congrFun ((dat1 V c).arrAt_eq_of_cover 9 (nodeOut V c) (fun t _ => node_flushed V c t) node_covered) (ix2 p q)

end Cert.KernelIdeal.Val

end
-- ==== Proof.GlueTakeNodeGlobals.lean ====
import proofs.«416324_j14577119003008_3_alg».proof.Proof.GlueTakes

set_option maxRecDepth 16384

noncomputable section

namespace Cert.KernelIdeal.Glue

open Cert.KernelIdeal Cert.KernelIdeal.Gen
open Idealize.ShloMosaic Idealize.ShloMosaic.TcCoe Idealize.ShloMosaic.StableHlo
open Idealize.ShloMosaic.ValueIdx

namespace TakeNG

variable (W : Valuation τ sig (Elt Ideal))

theorem pre : StableHlo.after (List.take 18 hostOps1_1) W (Proc.devRef .tc main_arg2) = W main_arg2
    ∧ StableHlo.after (List.take 18 hostOps1_1) W (Proc.devRef .tc main_call3_v5)
      = Mask.wrapped bcast_S_S50000 bcast_S_S50000 bcast_S50000_S50000x1_0 (W main_arg4) 128#32
    ∧ StableHlo.after (List.take 18 hostOps1_1) W (Proc.devRef .tc main_call3_v12)
      = Mask.inTable bcast_S_S50000x1 bcast_S1_S1x1_1 bcast_S1x1_S50000x1_0_1 reducesTo_S50000x1_S50000_d1 h_S_
          (Mask.wrapped bcast_S_S50000 bcast_S_S50000 bcast_S50000_S50000x1_0 (W main_arg4) 128#32) 127 := by
  simp only [hostOps1_1, List.take_succ_cons, List.take_zero]
  refine ⟨?_, ?_, ?_⟩ <;> read_stretch <;> simp only [TRef.ofBuf, TRef.toBuf, cast_eq] <;> rfl

theorem post : StableHlo.after (List.drop 18 hostOps1_1) W (Proc.devRef .tc main_v21)
    = select (broadcastInDim S50000x32 ![0] bcast_S50000_S50000x32_0 (W main_call3_v12))
        (Host.gather gather_S128x32_S50000x1_S50000x32_1_0_n_n_0_1_132 (W main_arg2) (W main_call3_v5))
        (broadcastInDim S50000x32 ![] bcast_S_S50000x32 (constant (F := Ideal) S_ .f32 0x7FC00000#32)) := by
  simp only [hostOps1_1, List.drop_succ_cons, List.drop_zero]
  read_stretch
  rfl

theorem narrowed : StableHlo.after hostOps1_2 W (Proc.devRef .tc main_v22)
    = truncf (F := Ideal) (s := S50000x32) (φ := .f32) .bf16 (W main_v21) bitsLt_bf16_f32 := by
  read_stretch

variable (m : (ℓ : Loc nD τ sig) → Buf (Elt Ideal) ℓ) (c : Dev nD) (outs : Outs (F := Ideal))

theorem V9_launch (r : Ref sig .tc) (h0 : r ∉ hostOps0_W := by decide) (h1 : r ∉ hostOps0_1_W := by decide)
    (h2 : r ∉ hostOps0_2_W := by decide) (h3 : r ∉ hostOps0_3_W := by decide) (h4 : r ∉ hostOps0_4_W := by decide)
    (h5 : r ∉ hostOps0_5_W := by decide) (h6 : r ∉ hostOps0_6_W := by decide)
    (h7 : r ∉ ([main_v17] : List (Ref sig .tc)) := by decide) (h8 : r ∉ hostOps1_W := by decide) :
    V9 m outs c r = m ((c.tc : Thread nD τ).loc r) :=
  (V9_of m outs c r h8).trans <| (V8_of m outs c r h7).trans <| (V7_of m c r h6).trans <| (V6_of m c r h5).trans <|
    V5_launch m c r h0 h1 h2 h3 h4

end TakeNG

open TakeNG

theorem win_node_globals (m : (ℓ : Loc nD τ sig) → Buf (Elt Ideal) ℓ) (c : Dev nD) (outs : Outs (F := Ideal))
    (hr4 : ∀ i, IntOp.cmpi .sge (m ((c.tc : Thread nD τ).loc main_arg4) i) 0#32 = 1#1
      ∧ IntOp.cmpi .slt (m ((c.tc : Thread nD τ).loc main_arg4) i) 128#32 = 1#1) (i : S50000x32.Idx) :
    V11 m outs c main_v22 i
      = takeNodeGlobals (m ((c.tc : Thread nD τ).loc main_arg2)) (m ((c.tc : Thread nD τ).loc main_arg4)) i := by
  show StableHlo.after hostOps1_2 (V10 m outs c) (Proc.devRef .tc main_v22) i = _
  rw [narrowed, truncf_apply]
  show StableHlo.after hostOps1_1 (V9 m outs c) (Proc.devRef .tc main_v21) i = _
  rw [after_take_drop 18, post, (pre _).2.2, (pre _).2.1, (pre _).1, Mask.take_unmasked (n := 127),
    V9_launch m c outs main_arg2, V9_launch m c outs main_arg4]
  · rfl
  · decide
  · rw [V9_launch m c outs main_arg4]; exact hr4

end Cert.KernelIdeal.Glue

end
-- ==== Proof.GlueHost1.lean ====
import proofs.«416324_j14577119003008_3_alg».proof.Proof.Gen.KernelIdeal.Regions
import proofs.«416324_j14577119003008_3_alg».proof.Proof.LibReadStretchRw
import Idealize.ShloMosaic.Lib.ValueLayout

noncomputable section

namespace Cert.KernelIdeal.Glue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (outs : Outs (F := Ideal))

def edgeSums (x3 : IVec S2x800000 32) (e : FVec Ideal S800000x48 .f32) : FVec Ideal S50000x48 .f32 :=
  Host.scatterAdd (F := Ideal) scatter_S50000x48_S800000x1_S800000x48_1_0_0_1
    (broadcastInDim S50000x48 ![] bcast_S_S50000x48 (constant (F := Ideal) S_ .f32 0x00000000#32))
    (broadcastInDim S800000x1 ![0] bcast_S800000_S800000x1_0
      (shapeCast S800000 (extractStridedSlice S1x800000 ![1, 0] x3 slices_S2x800000_S1x800000_1_0) shapeCasts_S1x800000_S800000))
    e

-- A buffer nothing after region 1's start writes holds there what it holds at the end.
private theorem V10_arg (c : Dev nD) (r : Ref sig .tc) (hm : V14 m outs c r = m ((c : Thread nD τ).loc r))
    (h11 : r ∉ hostOps1_2_W := by decide) (h12 : r ∉ ([main_v31] : List (Ref sig .tc)) := by decide)
    (h13 : r ∉ hostOps2_W := by decide) (h14 : r ∉ ([main_v59] : List (Ref sig .tc)) := by decide) :
    V10 m outs c r = m ((c : Thread nD τ).loc r) :=
  (V11_of m outs c r h11).symm.trans <| (V12_of m outs c r h12).symm.trans <| (V13_of m outs c r h13).symm.trans <|
    (V14_of m outs c r h14).symm.trans hm

-- The edge sums are scattered from region 0's result by the second row of the edge list, sliced off before region 0.
private theorem V10_v20 (c : Dev nD) :
    V10 m outs c main_v20 = edgeSums (m ((c : Thread nD τ).loc main_arg3)) (outs 8 main_v17 c) := by
  have h3 : V8 m outs c main_v3 = after hostOps0 (V0 m c) main_v3 :=
    (V8_of m outs c _ (by decide)).trans <| (V7_of m c _ (by decide)).trans <| (V6_of m c _ (by decide)).trans <|
      (V5_of m c _ (by decide)).trans <| (V4_of m c _ (by decide)).trans <| (V3_of m c _ (by decide)).trans
        (V2_of m c _ (by decide))
  have h17 : V8 m outs c main_v17 = outs 8 main_v17 c := Function.update_self ..
  refine (V10_of m outs c main_v20 (by decide)).trans ?_
  show after hostOps1 (V8 m outs c) main_v20 = _
  generalize V8 m outs c = W at h3 h17 ⊢
  read_stretch
  rw [h17, h3]
  read_stretch
  rfl

-- The last stretch before region 1 only casts (the identity on reals) and adds a unit axis.
private theorem read1_2 (W : Valuation τ sig (Elt Ideal)) :
    after hostOps1_2 W main_v23 = W main_arg0 ∧ after hostOps1_2 W main_v24 = W main_v20 ∧
    after hostOps1_2 W main_v25 = W main_arg12 ∧ after hostOps1_2 W main_v26 = W main_arg14 ∧
    (∀ a, after hostOps1_2 W main_v27 (ix2 0 a) = W main_arg13 (ix1 a)) ∧
    (∀ a, after hostOps1_2 W main_v28 (ix2 0 a) = W main_arg15 (ix1 a)) ∧
    (∀ a, after hostOps1_2 W main_v29 (ix2 0 a) = W main_arg16 (ix1 a)) ∧
    ∀ a, after hostOps1_2 W main_v30 (ix2 0 a) = W main_arg17 (ix1 a) := by
  refine ⟨?_, ?_, ?_, ?_, fun a => ?_, fun a => ?_, fun a => ?_, fun a => ?_⟩ <;> after_results <;>
    first | rfl | exact shapeCast_a_1a_apply _ _ 0 a

theorem win1_v23 (c : Dev nD) (i : S50000x48.Idx) :
    V11 m outs c main_v23 i = m ((c.tc : Thread nD τ).loc main_arg0) i :=
  congrFun ((read1_2 _).1.trans (V10_arg m outs c _ (V14_main_arg0 m outs c))) i

theorem win1_v25 (c : Dev nD) (i : S128x64.Idx) :
    V11 m outs c main_v25 i = m ((c.tc : Thread nD τ).loc main_arg12) i :=
  congrFun ((read1_2 _).2.2.1.trans (V10_arg m outs c _ (V14_main_arg12 m outs c))) i

theorem win1_v26 (c : Dev nD) (i : S64x48.Idx) :
    V11 m outs c main_v26 i = m ((c.tc : Thread nD τ).loc main_arg14) i :=
  congrFun ((read1_2 _).2.2.2.1.trans (V10_arg m outs c _ (V14_main_arg14 m outs c))) i

theorem win1_v27 (c : Dev nD) (a : Fin 64) :
    V11 m outs c main_v27 (ix2 0 a) = m ((c.tc : Thread nD τ).loc main_arg13) (ix1 a) :=
  ((read1_2 _).2.2.2.2.1 a).trans (congrFun (V10_arg m outs c _ (V14_main_arg13 m outs c)) _)

theorem win1_v28 (c : Dev nD) (a : Fin 48) :
    V11 m outs c main_v28 (ix2 0 a) = m ((c.tc : Thread nD τ).loc main_arg15) (ix1 a) :=
  ((read1_2 _).2.2.2.2.2.1 a).trans (congrFun (V10_arg m outs c _ (V14_main_arg15 m outs c)) _)

theorem win1_v29 (c : Dev nD) (a : Fin 48) :
    V11 m outs c main_v29 (ix2 0 a) = m ((c.tc : Thread nD τ).loc main_arg16) (ix1 a) :=
  ((read1_2 _).2.2.2.2.2.2.1 a).trans (congrFun (V10_arg m outs c _ (V14_main_arg16 m outs c)) _)

theorem win1_v30 (c : Dev nD) (a : Fin 48) :
    V11 m outs c main_v30 (ix2 0 a) = m ((c.tc : Thread nD τ).loc main_arg17) (ix1 a) :=
  ((read1_2 _).2.2.2.2.2.2.2 a).trans (congrFun (V10_arg m outs c _ (V14_main_arg17 m outs c)) _)

theorem win1_v24 (c : Dev nD) (i : S50000x48.Idx) :
    V11 m outs c main_v24 i = edgeSums (m ((c.tc : Thread nD τ).loc main_arg3)) (outs 8 main_v17 c) i :=
  congrFun ((read1_2 _).2.1.trans (V10_v20 m outs c)) i

end Cert.KernelIdeal.Glue

end
-- ==== Proof.RefDirectNode.lean ====
import proofs.«416324_j14577119003008_3_alg».proof.Proof.RefRead
import proofs.«416324_j14577119003008_3_alg».proof.Proof.ValueRow
import proofs.«416324_j14577119003008_3_alg».proof.Proof.RefRow

namespace Cert.ReferenceIdeal.RefDirect

open Cert.ReferenceIdeal Cert.ReferenceIdeal.Gen Idealize.ShloMosaic Idealize.ShloMosaic.ValueIdx Cert

-- Three arrays joined along the columns read, at a row, as `cat3` of that row of each.
theorem Node.join_apply (a b : FVec Ideal S50000x48 .f32) (c : FVec Ideal S50000x32 .f32) (p : Fin 50000) (k : Fin 128) :
    concatenate S50000x128 1 [⟨S50000x48, a⟩, ⟨S50000x48, b⟩, ⟨S50000x32, c⟩] concatenates_S50000x48_S50000x48_S50000x32_S50000x128_d1 (ix2 p k)
      = Mlp.cat3 (fun k => a (ix2 p k)) (fun k => b (ix2 p k)) (fun k => c (ix2 p k)) k := by
  unfold Mlp.cat3
  split
  · exact Mlp.Block.concat_cols_apply _ _ p k 0 a rfl 0 rfl _ (Nat.zero_add _)
  split
  · exact Mlp.Block.concat_cols_apply _ _ p k 1 b rfl 48 rfl _ (by show 48 + (k.val - 48) = k.val; omega)
  · exact Mlp.Block.concat_cols_apply _ _ p k 2 c rfl 96 rfl _ (by show 96 + (k.val - 96) = k.val; omega)

-- The stage is the general row function in the host's spelling at these sizes; its input is the three-piece join.
theorem ref_node (x0 : (⟨S50000x48, .f32⟩ : BufTy).Contents (Elt Ideal)) (x1 : (⟨S800000x48, .f32⟩ : BufTy).Contents (Elt Ideal)) (x2 : (⟨S128x32, .f32⟩ : BufTy).Contents (Elt Ideal)) (x3 : (⟨S2x800000, .i32⟩ : BufTy).Contents (Elt Ideal)) (x4 : (⟨S50000, .i32⟩ : BufTy).Contents (Elt Ideal)) (x5 : (⟨S800000, .i32⟩ : BufTy).Contents (Elt Ideal)) (x6 : (⟨S176x64, .f32⟩ : BufTy).Contents (Elt Ideal)) (x7 : (⟨S64, .f32⟩ : BufTy).Contents (Elt Ideal)) (x8 : (⟨S64x48, .f32⟩ : BufTy).Contents (Elt Ideal)) (x9 x10 x11 : (⟨S48, .f32⟩ : BufTy).Contents (Elt Ideal)) (x12 : (⟨S128x64, .f32⟩ : BufTy).Contents (Elt Ideal)) (x13 : (⟨S64, .f32⟩ : BufTy).Contents (Elt Ideal)) (x14 : (⟨S64x48, .f32⟩ : BufTy).Contents (Elt Ideal)) (x15 x16 x17 : (⟨S48, .f32⟩ : BufTy).Contents (Elt Ideal)) (p : Fin 50000) (q : Fin 48) :
    Read.val_main_v104 (F := Ideal) x0 x1 x2 x3 x4 x5 x6 x7 x8 x9 x10 x11 x12 x13 x14 x15 x16 x17 (ix2 p q) = Mlp.row Mlp.n48 Mlp.eps
      (Mlp.cat3 (fun k => x0 (ix2 p k)) (fun k => Read.val_main_v62 (F := Ideal) x0 x1 x2 x3 x5 x6 x7 x8 x9 x10 x11 (ix2 p k)) (fun k => Read.val_main_v69 (F := Ideal) x2 x4 (ix2 p k)))
      (fun k a => x12 (ix2 k a)) (fun a => x13 (ix1 a)) (fun a b => x14 (ix2 a b)) (fun b => x15 (ix1 b)) (fun b => x16 (ix1 b)) (fun b => x17 (ix1 b)) q :=
  (row_apply 0x42400000#32 0x3727C5AC#32 (Read.val_main_v70 (F := Ideal) x0 x1 x2 x3 x4 x5 x6 x7 x8 x9 x10 x11) x12 x13 x14 x15 x16 x17
    (by decide) p q).trans
    (congrArg (fun c => Mlp.row Mlp.n48 Mlp.eps c _ _ _ _ _ _ q) (funext fun k => Node.join_apply _ _ _ p k))

end Cert.ReferenceIdeal.RefDirect
-- ==== Proof.BridgeNode.lean ====
import proofs.«416324_j14577119003008_3_alg».proof.Proof.BridgeEdge
import proofs.«416324_j14577119003008_3_alg».proof.Proof.ArrayNode
import proofs.«416324_j14577119003008_3_alg».proof.Proof.GlueTakeNodeGlobals
import proofs.«416324_j14577119003008_3_alg».proof.Proof.GlueHost1
import proofs.«416324_j14577119003008_3_alg».proof.Proof.RefDirectNode

noncomputable section

namespace Cert.Proof.Bridge

open Cert.KernelIdeal Cert.KernelIdeal.Gen Cert.KernelIdeal.Glue Cert.ReferenceIdeal.Read Cert.ReferenceIdeal.RefDirect
open Idealize.ShloMosaic Idealize.ShloMosaic.TcCoe Idealize.ShloMosaic.ValueIdx Idealize.SL.Sem Cert

variable (m : (ℓ : Loc nD τ sig) → Buf (Elt Ideal) ℓ) (c : Dev nD)

theorem takeNodeGlobals_eq (x2 : FVec Ideal S128x32 .f32) (x4 : IVec S50000 32) :
    takeNodeGlobals x2 x4 = val_main_v69 (F := Ideal) x2 x4 := by
  unfold takeNodeGlobals val_main_v69 val_main_v68 val_main_v67 val_main_v64 val_main_v66 val_main_v63 val_main_v65 val_main_c_10
    val_main_c_11
  rfl

/-- The sums of edge rows into nodes are the same operations in both programs, applied to the edge stage's array. -/
theorem edgeSums_eq : edgeSums (arg m c main_arg3) (refEdge m c) = val_main_v62 (F := Ideal) (arg m c main_arg0) (arg m c main_arg1) (arg m c main_arg2) (arg m c main_arg3) (arg m c main_arg5) (arg m c main_arg6) (arg m c main_arg7) (arg m c main_arg8) (arg m c main_arg9) (arg m c main_arg10) (arg m c main_arg11) := by
  unfold refEdge edgeSums val_main_v62
  generalize val_main_v59 (F := Ideal) _ _ _ _ _ _ _ _ _ _ _ = e
  unfold val_main_v61 val_main_v60 val_main_cst_9 val_main_v3 val_main_v2
  rfl

theorem node_eq (h : InRange m c) : (Frame.dat1 (Frame.VR11 m) c).arrAt 9 cfg1.N = refNode m c := by
  funext j
  obtain ⟨p, q, rfl⟩ : ∃ (p : Fin 50000) (q : Fin 48), j = ix2 p q := ⟨j 0, j 1, eq_ix2 j⟩
  refine (Val.node_array (Frame.VR11 m) c p q).trans (Eq.trans ?_ (ref_node ..).symm)
  have hX : Frame.o1 m 8 main_v17 c = refEdge m c := (Frame.X8_arr m c 10).trans (edge_eq m c h)
  refine row_congr _ _ (cat3_congr ?_ ?_ ?_) ?_ ?_ ?_ ?_ ?_ ?_ q
  · exact funext fun k => win1_v23 m (Frame.o1 m) c (ix2 p k)
  · exact funext fun k => (win1_v24 m (Frame.o1 m) c (ix2 p k)).trans (by rw [hX, edgeSums_eq])
  · exact funext fun k => (win_node_globals m c (Frame.o1 m) h.nodes (ix2 p k)).trans (congrFun (takeNodeGlobals_eq _ _) _)
  · exact funext fun k => funext fun a => win1_v25 m (Frame.o1 m) c (ix2 k a)
  · exact funext fun a => win1_v27 m (Frame.o1 m) c a
  · exact funext fun a => funext fun b => win1_v26 m (Frame.o1 m) c (ix2 a b)
  · exact funext fun b => win1_v28 m (Frame.o1 m) c b
  · exact funext fun b => win1_v29 m (Frame.o1 m) c b
  · exact funext fun b => win1_v30 m (Frame.o1 m) c b

end Cert.Proof.Bridge

end
-- ==== Proof.ValueGlobal.lean ====
import proofs.«416324_j14577119003008_3_alg».proof.Proof.Gen.KernelIdeal.Skeleton
import proofs.«416324_j14577119003008_3_alg».proof.Proof.ValueRow

namespace Cert.KernelIdeal.Val

open Cert.KernelIdeal Cert.KernelIdeal.Gen Idealize.ShloMosaic Idealize.ShloMosaic.ValueIdx Cert

-- The body's value at an element is the row function of that row of its first operand: the general statement at these sizes, with nothing between the layers.
theorem global_payload_apply (v0 : Vec Ideal S128x128 .f32) (v2 : Vec Ideal S128x64 .f32) (v4 : Vec Ideal S1x64 .f32) (v10 : Vec Ideal S64x32 .f32) (v12 v36 v40 : Vec Ideal S1x32 .f32) (p : Fin 128) (q : Fin 32) :
    k2_pay1 (F := Ideal) (k2_pay2 v0 v2 v4 v10 v12) (k2_pay3 v36) v40 (ix2 p q)
      = Mlp.row Mlp.n32 Mlp.eps (fun k => v0 (ix2 p k))
          (fun k a => v2 (ix2 k a)) (fun a => v4 (ix2 0 a)) (fun a b => v10 (ix2 a b)) (fun b => v12 (ix2 0 b)) (fun b => v36 (ix2 0 b)) (fun b => v40 (ix2 0 b)) q := by
  refine (Mlp.Block.row_apply 0x42000000#32 0x3727C5AC#32 _ _ _ id (fun _ _ => rfl) _ _ _ _ _ _ _ _ _ _ p q).trans ?_
  simp only [k2_pay3, shapeCast_self]

end Cert.KernelIdeal.Val
-- ==== Proof.ArrayGlobal.lean ====
import proofs.«416324_j14577119003008_3_alg».proof.Proof.FrameGlobal
import proofs.«416324_j14577119003008_3_alg».proof.Proof.ValueGlobal
import proofs.«416324_j14577119003008_3_alg».proof.Proof.BlockElement

noncomputable section

namespace Cert.KernelIdeal.Val

open Cert.KernelIdeal Cert.KernelIdeal.Gen Cert.KernelIdeal.Frame Idealize.ShloMosaic Idealize.ShloMosaic.TcCoe
open Idealize.ShloMosaic.ValueIdx Cert

variable (V : (c : Dev nD) → (b : Ref sig .tc) → Buf (Elt Ideal) ((c : Thread nD τ).loc b))

theorem global_index_facts : ∀ t : Fin cfg2.N,
    (∀ a, win2_0.index t a = 0) ∧ (∀ a, win2_1.index t a = 0) ∧ (∀ a, win2_2.index t a = 0) ∧ (∀ a, win2_3.index t a = 0)
    ∧ (∀ a, win2_4.index t a = 0) ∧ (∀ a, win2_5.index t a = 0) ∧ (∀ a, win2_6.index t a = 0) ∧ ∀ a, win2_7.index t a = 0 :=
  (by decide +kernel : ∀ t : Fin grid2.N, _)

abbrev globalOut (c : Dev nD) : Vec Ideal S128x32 .f32 := fun i =>
  Mlp.row Mlp.n32 Mlp.eps (fun k => V c main_v54 (ix2 (i 0) k))
    (fun k a => V c main_arg18 (ix2 k a)) (fun a => V c main_v55 (ix2 0 a)) (fun a b => V c main_arg20 (ix2 a b))
    (fun b => V c main_v56 (ix2 0 b)) (fun b => V c main_v57 (ix2 0 b)) (fun b => V c main_v58 (ix2 0 b)) (i 1)

theorem global_flushed (c : Dev nD) (t : Fin cfg2.N) :
    (dat2 V c).flushed 7 t = ((cfg2.win 7).blk t).view.read (Elt Ideal) (globalOut V c) := by
  obtain ⟨e0, e1, e2, e3, e4, e5, e6, e7⟩ := global_index_facts t
  show (cfg2.win 7).cut (grid2.coords t) ((dat2 V c).after 7 t) = _
  rw [after2_7]
  unfold out2_7
  rw [View.canon_unit_zero vec2_zero]
  simp only [ld_origin2]
  funext j
  obtain ⟨p, q, rfl⟩ : ∃ p q, j = ix2 p q := ⟨_, _, eq_ix2 j⟩
  refine (global_payload_apply _ _ _ _ _ _ _ p q).trans ?_
  rw [show iblk2 V c 0 t = V c main_v54 from funext fun y => apply_rect_emb_zero win2_0 t e0 (V c main_v54) y y fun _ => rfl,
    show iblk2 V c 1 t = V c main_arg18 from funext fun y => apply_rect_emb_zero win2_1 t e1 (V c main_arg18) y y fun _ => rfl,
    show iblk2 V c 2 t = V c main_v55 from funext fun y => apply_rect_emb_zero win2_2 t e2 (V c main_v55) y y fun _ => rfl,
    show iblk2 V c 3 t = V c main_arg20 from funext fun y => apply_rect_emb_zero win2_3 t e3 (V c main_arg20) y y fun _ => rfl,
    show iblk2 V c 4 t = V c main_v56 from funext fun y => apply_rect_emb_zero win2_4 t e4 (V c main_v56) y y fun _ => rfl,
    show iblk2 V c 5 t = V c main_v57 from funext fun y => apply_rect_emb_zero win2_5 t e5 (V c main_v57) y y fun _ => rfl,
    show iblk2 V c 6 t = V c main_v58 from funext fun y => apply_rect_emb_zero win2_6 t e6 (V c main_v58) y y fun _ => rfl]
  exact (apply_rect_emb_zero win2_7 t e7 (globalOut V c) (ix2 p q) (ix2 p q) fun _ => rfl).symm

theorem global_covered (i : S128x32.Idx) :
    ∃ t : Fin cfg2.N, (cfg2.win 7).flush t = true ∧ i ∈ ((cfg2.win 7).blk t).view.set :=
  ⟨t2_0, flush2_7 _, mem_slice_whole_unit main_v59 fun a => by
    rw [(global_index_facts t2_0).2.2.2.2.2.2.2 a, Nat.zero_mul, Nat.zero_add]; exact ⟨Nat.zero_le _, (i a).isLt⟩⟩

theorem global_array (c : Dev nD) (p : Fin 128) (q : Fin 32) :
    (Frame.dat2 V c).arrAt 7 cfg2.N (ix2 p q) = Mlp.row Mlp.n32 Mlp.eps
      (fun k => V c main_v54 (ix2 p k))
      (fun k a => V c main_arg18 (ix2 k a)) (fun a => V c main_v55 (ix2 0 a)) (fun a b => V c main_arg20 (ix2 a b))
      (fun b => V c main_v56 (ix2 0 b)) (fun b => V c main_v57 (ix2 0 b)) (fun b => V c main_v58 (ix2 0 b)) q :=
  congrFun ((dat2 V c).arrAt_eq_of_cover 7 (globalOut V c) (fun t _ => global_flushed V c t) global_covered) (ix2 p q)

end Cert.KernelIdeal.Val

end
-- ==== Proof.GlueHost2.lean ====
import proofs.«416324_j14577119003008_3_alg».proof.Proof.Gen.KernelIdeal.Regions
import proofs.«416324_j14577119003008_3_alg».proof.Proof.LibReadStretchRw
import Idealize.ShloMosaic.Lib.ValueLayout

noncomputable section

namespace Cert.KernelIdeal.Glue

open Cert.KernelIdeal Cert.KernelIdeal.Gen
open Idealize.ShloMosaic Idealize.ShloMosaic.TcCoe Idealize.SL.Sem Idealize.ShloMosaic.StableHlo
open Idealize.ShloMosaic.ValueIdx

def globalsJoined (x2 : FVec Ideal S128x32 .f32) (x4 : IVec S50000 32) (x5 : IVec S800000 32)
    (n : FVec Ideal S50000x48 .f32) (e : FVec Ideal S800000x48 .f32) : FVec Ideal S128x128 .f32 :=
  concatenate S128x128 1
    [⟨S128x32, x2⟩,
     ⟨S128x48, Host.divf (F := Ideal)
        (Host.scatterAdd (F := Ideal) scatter_S128x48_S50000x1_S50000x48_1_0_0_1
          (broadcastInDim S128x48 ![] bcast_S_S128x48 (constant (F := Ideal) S_ .f32 0x00000000#32))
          (broadcastInDim S50000x1 ![0] bcast_S50000_S50000x1_0 x4)
          n)
        (broadcastInDim S128x48 ![0, 1] bcast_S128x1_S128x48_0_1
          (maximumf (F := Ideal)
            (Host.scatterAdd (F := Ideal) scatter_S128x1_S50000x1_S50000x1_1_0_0_1
              (broadcastInDim S128x1 ![] bcast_S_S128x1 (constant (F := Ideal) S_ .f32 0x00000000#32))
              (broadcastInDim S50000x1 ![0] bcast_S50000_S50000x1_0 x4)
              (broadcastInDim S50000x1 ![] bcast_S_S50000x1 (constant (F := Ideal) S_ .f32 0x3F800000#32)))
            (broadcastInDim S128x1 ![] bcast_S_S128x1 (constant (F := Ideal) S_ .f32 0x3F800000#32))))⟩,
     ⟨S128x48, Host.divf (F := Ideal)
        (Host.scatterAdd (F := Ideal) scatter_S128x48_S800000x1_S800000x48_1_0_0_1
          (broadcastInDim S128x48 ![] bcast_S_S128x48 (constant (F := Ideal) S_ .f32 0x00000000#32))
          (broadcastInDim S800000x1 ![0] bcast_S800000_S800000x1_0 x5)
          e)
        (broadcastInDim S128x48 ![0, 1] bcast_S128x1_S128x48_0_1
          (maximumf (F := Ideal)
            (Host.scatterAdd (F := Ideal) scatter_S128x1_S800000x1_S800000x1_1_0_0_1
              (broadcastInDim S128x1 ![] bcast_S_S128x1 (constant (F := Ideal) S_ .f32 0x00000000#32))
              (broadcastInDim S800000x1 ![0] bcast_S800000_S800000x1_0 x5)
              (broadcastInDim S800000x1 ![] bcast_S_S800000x1 (constant (F := Ideal) S_ .f32 0x3F800000#32)))
            (broadcastInDim S128x1 ![] bcast_S_S128x1 (constant (F := Ideal) S_ .f32 0x3F800000#32))))⟩]
    concatenates_S128x32_S128x48_S128x48_S128x128_d1

variable (m : (ℓ : Loc nD τ sig) → Buf (Elt Ideal) ℓ) (outs : Outs (F := Ideal)) (c : Dev nD)

-- A buffer nothing after region 2's start writes holds there what it holds at the end.
private theorem V12_arg {r : Ref sig .tc} (hm : V14 m outs c r = m ((c.tc : Thread nD τ).loc r))
    (h13 : r ∉ hostOps2_W := by decide) (h14 : r ∉ ([main_v59] : List (Ref sig .tc)) := by decide) :
    V12 m outs c r = m ((c.tc : Thread nD τ).loc r) :=
  (V13_of m outs c r h13).symm.trans ((V14_of m outs c r h14).symm.trans hm)

private theorem V12_v17 : V12 m outs c main_v17 = outs 8 main_v17 c :=
  (V12_of m outs c _ (by decide)).trans <| (V11_of m outs c _ (by decide)).trans <|
    (V10_of m outs c _ (by decide)).trans <| (V9_of m outs c _ (by decide)).trans (Function.update_self ..)

-- The stretch's last five operations join three blocks, whatever those hold.
private theorem post2 (W : Valuation τ sig (Elt Ideal)) {a b d} (ha : W main_arg2 = a) (hb : W main_v42 = b) (hd : W main_v53 = d) :
    after (List.drop 30 hostOps2) W main_v54
      = concatenate S128x128 1 [⟨S128x32, a⟩, ⟨S128x48, b⟩, ⟨S128x48, d⟩] concatenates_S128x32_S128x48_S128x48_S128x128_d1 := by
  subst ha hb hd
  simp only [hostOps2, List.drop_succ_cons, List.drop_zero]
  read_stretch
  rfl

-- Its first thirty compute them: the globals as they are, and the per-graph means of the nodes and of the edges.
private theorem read2_v54 (W : Valuation τ sig (Elt Ideal)) :
    after hostOps2 W main_v54 = globalsJoined (W main_arg2) (W main_arg4) (W main_arg5) (W main_v31) (W main_v17) := by
  rw [← List.take_append_drop 30 (hostOps2 (F := Ideal)), after_append]
  refine post2 _ ?_ ?_ ?_ <;> simp only [hostOps2, List.take_succ_cons, List.take_zero] <;> read_stretch <;> rfl

-- Its last four operations add unit axes.
private theorem read2 (W : Valuation τ sig (Elt Ideal)) :
    (∀ a, after hostOps2 W main_v55 (ix2 0 a) = W main_arg19 (ix1 a)) ∧
    (∀ a, after hostOps2 W main_v56 (ix2 0 a) = W main_arg21 (ix1 a)) ∧
    (∀ a, after hostOps2 W main_v57 (ix2 0 a) = W main_arg22 (ix1 a)) ∧
    ∀ a, after hostOps2 W main_v58 (ix2 0 a) = W main_arg23 (ix1 a) := by
  refine ⟨fun a => ?_, fun a => ?_, fun a => ?_, fun a => ?_⟩ <;> read_stretch <;> exact shapeCast_a_1a_apply _ _ 0 a

theorem win2_arg18 : V13 m outs c main_arg18 = m ((c.tc : Thread nD τ).loc main_arg18) :=
  (V14_of m outs c main_arg18 (by decide)).symm.trans (V14_main_arg18 m outs c)

theorem win2_arg20 : V13 m outs c main_arg20 = m ((c.tc : Thread nD τ).loc main_arg20) :=
  (V14_of m outs c main_arg20 (by decide)).symm.trans (V14_main_arg20 m outs c)

theorem win2_v55 (a : Fin 64) : V13 m outs c main_v55 (ix2 0 a) = m ((c.tc : Thread nD τ).loc main_arg19) (ix1 a) :=
  ((read2 _).1 a).trans (congrFun (V12_arg m outs c (V14_main_arg19 m outs c)) _)

theorem win2_v56 (b : Fin 32) : V13 m outs c main_v56 (ix2 0 b) = m ((c.tc : Thread nD τ).loc main_arg21) (ix1 b) :=
  ((read2 _).2.1 b).trans (congrFun (V12_arg m outs c (V14_main_arg21 m outs c)) _)

theorem win2_v57 (b : Fin 32) : V13 m outs c main_v57 (ix2 0 b) = m ((c.tc : Thread nD τ).loc main_arg22) (ix1 b) :=
  ((read2 _).2.2.1 b).trans (congrFun (V12_arg m outs c (V14_main_arg22 m outs c)) _)

theorem win2_v58 (b : Fin 32) : V13 m outs c main_v58 (ix2 0 b) = m ((c.tc : Thread nD τ).loc main_arg23) (ix1 b) :=
  ((read2 _).2.2.2 b).trans (congrFun (V12_arg m outs c (V14_main_arg23 m outs c)) _)

theorem win2_v54 : V13 m outs c main_v54
    = globalsJoined (m ((c.tc : Thread nD τ).loc main_arg2)) (m ((c.tc : Thread nD τ).loc main_arg4)) (m ((c.tc : Thread nD τ).loc main_arg5))
        (outs 12 main_v31 c) (outs 8 main_v17 c) :=
  (read2_v54 _).trans <| by
    rw [V12_arg m outs c (V14_main_arg2 m outs c), V12_arg m outs c (V14_main_arg4 m outs c),
      V12_arg m outs c (V14_main_arg5 m outs c), V12_v17 m outs c,
      show V12 m outs c main_v31 = _ from Function.update_self ..]

end Cert.KernelIdeal.Glue

end
-- ==== Proof.RefDirectGlobal.lean ====
import proofs.«416324_j14577119003008_3_alg».proof.Proof.RefRow
import proofs.«416324_j14577119003008_3_alg».proof.Proof.RefRead

noncomputable section

namespace Cert.ReferenceIdeal.RefDirect

open Cert.ReferenceIdeal Cert.ReferenceIdeal.Gen Idealize.ShloMosaic Idealize.ShloMosaic.ValueIdx Cert

theorem ref_global (x0 : (⟨S50000x48, .f32⟩ : BufTy).Contents (Elt Ideal)) (x1 : (⟨S800000x48, .f32⟩ : BufTy).Contents (Elt Ideal)) (x2 : (⟨S128x32, .f32⟩ : BufTy).Contents (Elt Ideal)) (x3 : (⟨S2x800000, .i32⟩ : BufTy).Contents (Elt Ideal)) (x4 : (⟨S50000, .i32⟩ : BufTy).Contents (Elt Ideal)) (x5 : (⟨S800000, .i32⟩ : BufTy).Contents (Elt Ideal)) (x6 : (⟨S176x64, .f32⟩ : BufTy).Contents (Elt Ideal)) (x7 : (⟨S64, .f32⟩ : BufTy).Contents (Elt Ideal)) (x8 : (⟨S64x48, .f32⟩ : BufTy).Contents (Elt Ideal)) (x9 x10 x11 : (⟨S48, .f32⟩ : BufTy).Contents (Elt Ideal)) (x12 : (⟨S128x64, .f32⟩ : BufTy).Contents (Elt Ideal)) (x13 : (⟨S64, .f32⟩ : BufTy).Contents (Elt Ideal)) (x14 : (⟨S64x48, .f32⟩ : BufTy).Contents (Elt Ideal)) (x15 x16 x17 : (⟨S48, .f32⟩ : BufTy).Contents (Elt Ideal)) (x18 : (⟨S128x64, .f32⟩ : BufTy).Contents (Elt Ideal)) (x19 : (⟨S64, .f32⟩ : BufTy).Contents (Elt Ideal)) (x20 : (⟨S64x32, .f32⟩ : BufTy).Contents (Elt Ideal)) (x21 x22 x23 : (⟨S32, .f32⟩ : BufTy).Contents (Elt Ideal)) (p : Fin 128) (q : Fin 32) :
    Read.val_main_v161 (F := Ideal) x0 x1 x2 x3 x4 x5 x6 x7 x8 x9 x10 x11 x12 x13 x14 x15 x16 x17 x18 x19 x20 x21 x22 x23 (ix2 p q) = Mlp.row Mlp.n32 Mlp.eps
      (fun k => Read.val_main_v127 (F := Ideal) x0 x1 x2 x3 x4 x5 x6 x7 x8 x9 x10 x11 x12 x13 x14 x15 x16 x17 (ix2 p k))
      (fun k a => x18 (ix2 k a)) (fun a => x19 (ix1 a)) (fun a b => x20 (ix2 a b)) (fun b => x21 (ix1 b)) (fun b => x22 (ix1 b)) (fun b => x23 (ix1 b)) q :=
  row_apply 0x42000000#32 0x3727C5AC#32 (Read.val_main_v127 (F := Ideal) x0 x1 x2 x3 x4 x5 x6 x7 x8 x9 x10 x11 x12 x13 x14 x15 x16 x17) x18 x19 x20 x21 x22 x23 (by decide) p q

end Cert.ReferenceIdeal.RefDirect

end
-- ==== Proof.BridgeGlobal.lean ====
import proofs.«416324_j14577119003008_3_alg».proof.Proof.BridgeNode
import proofs.«416324_j14577119003008_3_alg».proof.Proof.ArrayGlobal
import proofs.«416324_j14577119003008_3_alg».proof.Proof.GlueHost2
import proofs.«416324_j14577119003008_3_alg».proof.Proof.RefDirectGlobal

noncomputable section

namespace Cert.Proof.Bridge

open Cert.KernelIdeal Cert.KernelIdeal.Gen Cert.KernelIdeal.Glue Cert.ReferenceIdeal.Read Cert.ReferenceIdeal.RefDirect
open Idealize.ShloMosaic Idealize.ShloMosaic.TcCoe Idealize.ShloMosaic.ValueIdx Idealize.SL.Sem Cert

variable (m : (ℓ : Loc nD τ sig) → Buf (Elt Ideal) ℓ) (c : Dev nD)

/-- The global stage's joined input is made by the same operations in both programs from the node and edge stages' arrays. -/
theorem joined_ops_eq :
    globalsJoined (arg m c main_arg2) (arg m c main_arg4) (arg m c main_arg5) (refNode m c) (refEdge m c) = refJoined m c := by
  unfold refJoined refNode refEdge globalsJoined val_main_v127 val_main_v115 val_main_v126 val_main_v107 val_main_v114 val_main_v118 val_main_v125
    val_main_v113 val_main_v124 val_main_v111 val_main_v112 val_main_v122 val_main_v123 val_main_v105 val_main_v106 val_main_v108
    val_main_v109 val_main_v110 val_main_v116 val_main_v117 val_main_v119 val_main_v120 val_main_v121 val_main_cst_17 val_main_cst_18
    val_main_cst_19 val_main_cst_20 val_main_cst_21 val_main_cst_22 val_main_cst_23 val_main_cst_24
  generalize val_main_v104 (F := Ideal) _ _ _ _ _ _ _ _ _ _ _ _ _ _ _ _ _ _ = n
  generalize val_main_v59 (F := Ideal) _ _ _ _ _ _ _ _ _ _ _ = e
  rfl

theorem joined_row_eq (h : InRange m c) : Frame.VR13 m c main_v54 = refJoined m c := by
  have e12 : Frame.o2 m 12 main_v31 c = refNode m c :=
    (show Frame.o2 m 12 main_v31 c = Frame.X12 m c main_v31 by unfold Frame.o2; exact if_neg (by decide)).trans
      ((Frame.X12_arr m c 9).trans (node_eq m c h))
  have e8 : Frame.o2 m 8 main_v17 c = refEdge m c :=
    (show Frame.o2 m 8 main_v17 c = Frame.X8 m c main_v17 by unfold Frame.o2; exact if_pos (by decide)).trans
      ((Frame.X8_arr m c 10).trans (edge_eq m c h))
  refine (win2_v54 (m := m) (outs := Frame.o2 m) (c := c)).trans ?_
  rw [e12, e8]
  exact joined_ops_eq m c

theorem global_eq (h : InRange m c) : (Frame.dat2 (Frame.VR13 m) c).arrAt 7 cfg2.N = refGlobal m c := by
  funext j
  obtain ⟨p, q, rfl⟩ : ∃ (p : Fin 128) (q : Fin 32), j = ix2 p q := ⟨j 0, j 1, eq_ix2 j⟩
  refine (Val.global_array (Frame.VR13 m) c p q).trans (Eq.trans ?_ (ref_global ..).symm)
  refine row_congr _ _ ?_ ?_ ?_ ?_ ?_ ?_ ?_ q
  · exact funext fun k => congrFun (joined_row_eq m c h) (ix2 p k)
  · exact funext fun k => funext fun a => congrFun (win2_arg18 (m := m) (outs := Frame.o2 m) (c := c)) (ix2 k a)
  · exact funext fun a => win2_v55 (m := m) (outs := Frame.o2 m) (c := c) a
  · exact funext fun a => funext fun b => congrFun (win2_arg20 (m := m) (outs := Frame.o2 m) (c := c)) (ix2 a b)
  · exact funext fun b => win2_v56 (m := m) (outs := Frame.o2 m) (c := c) b
  · exact funext fun b => win2_v57 (m := m) (outs := Frame.o2 m) (c := c) b
  · exact funext fun b => win2_v58 (m := m) (outs := Frame.o2 m) (c := c) b

end Cert.Proof.Bridge

end
-- ==== Proof.HostGlue.lean ====
import proofs.«416324_j14577119003008_3_alg».proof.Defs
import proofs.«416324_j14577119003008_3_alg».proof.Proof.Gen.Pre_finite_inputs
import Idealize.ShloMosaic.Lib.ReduceAll

noncomputable section

namespace Cert.KernelIdeal.Glue

open Idealize.ShloMosaic

section Ranges

variable {F : FTy → Type} [FloatOps F] [Cert.Pre_finite_inputs.Facts]

instance subsingleton_scalar_idx : Subsingleton Cert.Pre_finite_inputs.S_.Idx := ⟨fun a b => funext fun d => d.elim0⟩

/-- Each all-reduced comparison in the precondition's tail holds at every element of its index array. -/
theorem ranges_of_tail (a3 : IVec Cert.Pre_finite_inputs.S2x800000 32) (a4 : IVec Cert.Pre_finite_inputs.S50000 32)
    (a5 : IVec Cert.Pre_finite_inputs.S800000 32) (v98 : IVec Cert.Pre_finite_inputs.S_ 1)
    (v101 : IVec Cert.Pre_finite_inputs.S32 1) (c39 : IVec Cert.Pre_finite_inputs.S_ 1)
    (h : Cert.Pre_finite_inputs.fn_part6 (F := F) a3 a4 a5 v98 v101 c39 = fun _ => 1#1) :
    (∀ i, IntOp.cmpi .sge (a3 i) 0#32 = 1#1 ∧ IntOp.cmpi .slt (a3 i) 50000#32 = 1#1)
      ∧ (∀ i, IntOp.cmpi .sge (a4 i) 0#32 = 1#1 ∧ IntOp.cmpi .slt (a4 i) 128#32 = 1#1)
      ∧ (∀ i, IntOp.cmpi .sge (a5 i) 0#32 = 1#1 ∧ IntOp.cmpi .slt (a5 i) 128#32 = 1#1) := by
  have e := congrFun h (fun d => d.elim0)
  unfold Cert.Pre_finite_inputs.fn_part6 Cert.Pre_finite_inputs.fn_part7 at e
  obtain ⟨e4, h5⟩ := IntOp.andi_eq_one.1 e
  obtain ⟨e3, h4⟩ := IntOp.andi_eq_one.1 e4
  obtain ⟨-, h3⟩ := IntOp.andi_eq_one.1 e3
  refine ⟨fun i => ?_, fun i => ?_, fun i => ?_⟩
  · exact IntOp.andi_eq_one.1 (Host.reduce_andi_all _ _ _ _ _ h3 i)
  · exact IntOp.andi_eq_one.1 (Host.reduce_andi_all _ _ _ _ _ h4 i)
  · exact IntOp.andi_eq_one.1 (Host.reduce_andi_all _ _ _ _ _ h5 i)

theorem range_of_pre (a0 : FVec F Cert.Pre_finite_inputs.S50000x48 .f32) (a1 : FVec F Cert.Pre_finite_inputs.S800000x48 .f32) (a2 : FVec F Cert.Pre_finite_inputs.S128x32 .f32) (a3 : IVec Cert.Pre_finite_inputs.S2x800000 32) (a4 : IVec Cert.Pre_finite_inputs.S50000 32) (a5 : IVec Cert.Pre_finite_inputs.S800000 32) (a6 : FVec F Cert.Pre_finite_inputs.S176x64 .f32) (a7 : FVec F Cert.Pre_finite_inputs.S64 .f32) (a8 : FVec F Cert.Pre_finite_inputs.S64x48 .f32) (a9 : FVec F Cert.Pre_finite_inputs.S48 .f32) (a10 : FVec F Cert.Pre_finite_inputs.S48 .f32) (a11 : FVec F Cert.Pre_finite_inputs.S48 .f32) (a12 : FVec F Cert.Pre_finite_inputs.S128x64 .f32) (a13 : FVec F Cert.Pre_finite_inputs.S64 .f32) (a14 : FVec F Cert.Pre_finite_inputs.S64x48 .f32) (a15 : FVec F Cert.Pre_finite_inputs.S48 .f32) (a16 : FVec F Cert.Pre_finite_inputs.S48 .f32) (a17 : FVec F Cert.Pre_finite_inputs.S48 .f32) (a18 : FVec F Cert.Pre_finite_inputs.S128x64 .f32) (a19 : FVec F Cert.Pre_finite_inputs.S64 .f32) (a20 : FVec F Cert.Pre_finite_inputs.S64x32 .f32) (a21 : FVec F Cert.Pre_finite_inputs.S32 .f32) (a22 : FVec F Cert.Pre_finite_inputs.S32 .f32) (a23 : FVec F Cert.Pre_finite_inputs.S32 .f32)
    (h : Cert.Pre_finite_inputs.fn (F := F) a0 a1 a2 a3 a4 a5 a6 a7 a8 a9 a10 a11 a12 a13 a14 a15 a16 a17 a18 a19 a20 a21 a22 a23 = fun _ => 1#1) :
    (∀ i, IntOp.cmpi .sge (a3 i) 0#32 = 1#1 ∧ IntOp.cmpi .slt (a3 i) 50000#32 = 1#1)
      ∧ (∀ i, IntOp.cmpi .sge (a4 i) 0#32 = 1#1 ∧ IntOp.cmpi .slt (a4 i) 128#32 = 1#1)
      ∧ (∀ i, IntOp.cmpi .sge (a5 i) 0#32 = 1#1 ∧ IntOp.cmpi .slt (a5 i) 128#32 = 1#1) :=
  ranges_of_tail (F := F) a3 a4 a5 _ _ _ h

end Ranges

end Cert.KernelIdeal.Glue

end
-- ==== Proof.Algebraic.lean ====
import proofs.«416324_j14577119003008_3_alg».proof.Proof.BridgeGlobal
import proofs.«416324_j14577119003008_3_alg».proof.Proof.RefStages
import proofs.«416324_j14577119003008_3_alg».proof.Proof.HostGlue

noncomputable section

namespace Cert.Proof.Bridge

open Cert.KernelIdeal Cert.KernelIdeal.Gen Cert.KernelIdeal.Glue Cert.ReferenceIdeal.Read Cert.ReferenceIdeal.RefDirect
open Idealize.ShloMosaic Idealize.ShloMosaic.TcCoe Idealize.ShloMosaic.ValueIdx Idealize.SL.Sem Cert

variable (m : (ℓ : Loc nD τ sig) → Buf (Elt Ideal) ℓ)

/-- The precondition's last three conjuncts are the three index ranges. -/
theorem inRange_of_pre (h : Cert.Pre_KernelIdeal m) (c : Dev nD) : InRange m c := by
  obtain ⟨h3, h4, h5⟩ := range_of_pre (F := Ideal) _ _ _ _ _ _ _ _ _ _ _ _ _ _ _ _ _ _ _ _ _ _ _ _ (h c)
  exact ⟨h3, h4, h5⟩

set_option maxHeartbeats 4000000 in
/-- With every index in range each region's array is the reference's stage of the same arguments, so both runs end at equal results. -/
theorem algebraic : Cert.algebraic_KernelIdeal_ReferenceIdeal := by
  intro m ρ m' ρ' hpre hagree
  refine ⟨fun c => (Frame.dat1 (Frame.VR11 m) c).arrAt 9 cfg1.N, fun c => (Frame.dat0 (Frame.VR7 m) c).arrAt 10 cfg0.N,
    fun c => (Frame.dat2 (Frame.VR13 m) c).arrAt 7 cfg2.N, Frame.run_values (F := Ideal) m ρ, ?_⟩
  refine (θ_run Cert.ReferenceIdeal.defs _ _).mono (fun r h c => ?_) (Cert.ReferenceIdeal.RefStages.ref_run (F := Ideal) m' ρ')
  have hr := inRange_of_pre m hpre c
  obtain ⟨e0, e1, e2, e3, e4, e5, e6, e7, e8, e9, e10, e11, e12, e13, e14, e15, e16, e17, e18, e19, e20, e21, e22, e23⟩ := hagree c
  obtain ⟨h104, h59, h161, hargs⟩ := h c
  refine ⟨?_, ?_, ?_, hargs⟩
  · rw [h104, e0, e1, e2, e3, e4, e5, e6, e7, e8, e9, e10, e11, e12, e13, e14, e15, e16, e17]; exact (node_eq m c hr).symm
  · rw [h59, e0, e1, e2, e3, e5, e6, e7, e8, e9, e10, e11]; exact (edge_eq m c hr).symm
  · rw [h161, e0, e1, e2, e3, e4, e5, e6, e7, e8, e9, e10, e11, e12, e13, e14, e15, e16, e17, e18, e19, e20, e21, e22, e23]; exact (global_eq m c hr).symm

end Cert.Proof.Bridge

end
-- ==== Proof.lean ====
import proofs.«416324_j14577119003008_3_alg».proof.Defs
import proofs.«416324_j14577119003008_3_alg».proof.Proof.Gen.Kernel
import proofs.«416324_j14577119003008_3_alg».proof.Proof.Gen.KernelIdeal
import proofs.«416324_j14577119003008_3_alg».proof.Proof.Gen.ReferenceIdeal
import proofs.«416324_j14577119003008_3_alg».proof.Proof.Gen.Pre_finite_inputs
import proofs.«416324_j14577119003008_3_alg».proof.Proof.BitsRun
import proofs.«416324_j14577119003008_3_alg».proof.Proof.Run
import proofs.«416324_j14577119003008_3_alg».proof.Proof.RefStages
import proofs.«416324_j14577119003008_3_alg».proof.Proof.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.Frame.frame (F := Bits) m ρ

theorem frame_kernel_ideal : Cert.frame_KernelIdeal := fun m ρ _ => Cert.KernelIdeal.Frame.frame (F := Ideal) m ρ

/-- The reference's frame is its run with the results dropped. -/
theorem frame_reference_ideal : Cert.frame_ReferenceIdeal := fun m ρ _ =>
  (θ_run Cert.ReferenceIdeal.defs _ _).mono (fun _ h c => (h c).2.2.2) (Cert.ReferenceIdeal.RefStages.ref_run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.Proof.Bridge.algebraic⟩

end Cert.Proof

end
